-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x20 : Shape := ⟨2, ![128, 20]⟩
abbrev S20 : Shape := ⟨1, ![20]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg7 : FVec F S128 .f32) (main_arg8 : FVec F S128x20 .f32) (main_arg9 : FVec F S20 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x20 .f32 := Host.absf main_arg8
  let main_cst_8 : FVec F S_ .f32 := constant S_ .f32 0x7F800000#32
  let main_v25 : FVec F S128x20 .f32 := broadcastInDim S128x20 ![] bcast_S_S128x20 main_cst_8
  let main_v26 : IVec S128x20 1 := cmpf .olt main_v24 main_v25
  let main_c_9 : IVec S_ 1 := constantI S_ 1 1#1
  let main_v27 : IVec S_ 1 := (fun x v => Host.reduce IntOp.andi x v reducesTo_S128x20_S_d0_1 h_S_) main_v26 main_c_9
  let main_v28 : IVec S_ 1 := andi main_v23 main_v27
  let main_v29 : FVec F S20 .f32 := Host.absf main_arg9
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  main_v33

def fn {F : FTy → Type} [FloatOps F] (main_arg0 : IVec S100000 32) (main_arg1 : IVec S2x1600000 32) (main_arg2 : IVec S100000 32) (main_arg3 : FVec F S50000x128 .f32) (main_arg4 : FVec F S128x128 .f32) (main_arg5 : FVec F S128 .f32) (main_arg6 : FVec F S128x128 .f32) (main_arg7 : FVec F S128 .f32) (main_arg8 : FVec F S128x20 .f32) (main_arg9 : FVec F S20 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000 : Shape := ⟨1, ![100000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x20 : Shape := ⟨2, ![128, 20]⟩
abbrev S20 : Shape := ⟨1, ![20]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S512 : Shape := ⟨1, ![512]⟩
abbrev S100000x1 : Shape := ⟨2, ![100000, 1]⟩
abbrev S512x1 : Shape := ⟨2, ![512, 1]⟩
abbrev S512x128 : Shape := ⟨2, ![512, 128]⟩
abbrev S100000x128 : Shape := ⟨2, ![100000, 128]⟩
abbrev S10000x128 : Shape := ⟨2, ![10000, 128]⟩
abbrev S1700000x128 : Shape := ⟨2, ![1700000, 128]⟩
abbrev S10000x1 : Shape := ⟨2, ![10000, 1]⟩
abbrev S1x128 : Shape := ⟨2, ![1, 128]⟩
abbrev S1x20 : Shape := ⟨2, ![1, 20]⟩
abbrev S512x20 : Shape := ⟨2, ![512, 20]⟩
abbrev S5000x128 : Shape := ⟨2, ![5000, 128]⟩
abbrev S5000x1 : Shape := ⟨2, ![5000, 1]⟩
abbrev S5000x512 : Shape := ⟨2, ![5000, 512]⟩

abbrev nBuf : Space → Nat
  | .hbm => 104
  | .vmem => 33
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S100000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x20, .f32⟩
  | .hbm, ⟨9, _⟩ => ⟨S20, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .f32⟩
  | .hbm, ⟨51, _⟩ => ⟨S100000, .f32⟩
  | .hbm, ⟨52, _⟩ => ⟨S_, .f32⟩
  | .hbm, ⟨53, _⟩ => ⟨S512, .f32⟩
  | .hbm, ⟨54, _⟩ => ⟨S100000x1, .i32⟩
  | .hbm, ⟨55, _⟩ => ⟨S512, .f32⟩
  | .hbm, ⟨56, _⟩ => ⟨S512x1, .f32⟩
  | .hbm, ⟨57, _⟩ => ⟨S512x128, .f32⟩
  | .hbm, ⟨58, _⟩ => ⟨S_, .i32⟩
  | .hbm, ⟨59, _⟩ => ⟨S100000, .i32⟩
  | .hbm, ⟨60, _⟩ => ⟨S100000, .i1⟩
  | .hbm, ⟨61, _⟩ => ⟨S_, .i32⟩
  | .hbm, ⟨62, _⟩ => ⟨S100000, .i32⟩
  | .hbm, ⟨63, _⟩ => ⟨S100000, .i32⟩
  | .hbm, ⟨64, _⟩ => ⟨S100000, .i32⟩
  | .hbm, ⟨65, _⟩ => ⟨S100000x1, .i32⟩
  | .hbm, ⟨66, _⟩ => ⟨S100000x128, .f32⟩
  | .hbm, ⟨67, _⟩ => ⟨S100000x128, .bf16⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .bf16⟩
  | .hbm, ⟨77, _⟩ => ⟨S1700000x1, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .bf16⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x128, .bf16⟩
  | .hbm, ⟨94, _⟩ => ⟨S1700000x1, .f32⟩
  | .hbm, ⟨95, _⟩ => ⟨S1700000x128, .f32⟩
  | .hbm, ⟨96, _⟩ => ⟨S_, .f32⟩
  | .hbm, ⟨97, _⟩ => ⟨S100000x128, .f32⟩
  | .hbm, ⟨98, _⟩ => ⟨S1700000x1, .i32⟩
  | .hbm, ⟨99, _⟩ => ⟨S100000x128, .f32⟩
  | .hbm, ⟨100, _⟩ => ⟨S1x128, .f32⟩
  | .hbm, ⟨101, _⟩ => ⟨S100000x1, .i32⟩
  | .hbm, ⟨102, _⟩ => ⟨S1x20, .f32⟩
  | .hbm, ⟨103, _⟩ => ⟨S512x20, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .bf16⟩
  | .local _ .vmem, ⟨6, _⟩ => ⟨S10000x128, .bf16⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .bf16⟩
  | .local _ .vmem, ⟨16, _⟩ => ⟨S10000x128, .bf16⟩
  | .local _ .vmem, ⟨17, _⟩ => ⟨S10000x128, .bf16⟩
  | .local _ .vmem, ⟨18, _⟩ => ⟨S10000x128, .bf16⟩
  | .local _ .vmem, ⟨19, _⟩ => ⟨S10000x1, .f32⟩
  | .local _ .vmem, ⟨20, _⟩ => ⟨S10000x1, .f32⟩
  | .local _ .vmem, ⟨21, _⟩ => ⟨S10000x128, .f32⟩
  | .local _ .vmem, ⟨22, _⟩ => ⟨S10000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x1, .i32⟩
  | .local _ .vmem, ⟨27, _⟩ => ⟨S5000x1, .i32⟩
  | .local _ .vmem, ⟨28, _⟩ => ⟨S512x128, .f32⟩
  | .local _ .vmem, ⟨29, _⟩ => ⟨S128x20, .f32⟩
  | .local _ .vmem, ⟨30, _⟩ => ⟨S1x20, .f32⟩
  | .local _ .vmem, ⟨31, _⟩ => ⟨S512x20, .f32⟩
  | .local _ .vmem, ⟨32, _⟩ => ⟨S512x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc4_sem3_0 : DmaSem sig := 28
abbrev cc4_sem4_0 : DmaSem sig := 29
abbrev cc4_sem5_0 : DmaSem sig := 30
abbrev cc4_sem6_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![170], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v26 : BitVec 1 := Scalar.cmpi .eq arg0 c19_i32
  let v27 : BitVec 32 := Scalar.extui v26
  let c0_i32_11 : BitVec 32 := 0#32
  let v28 : BitVec 1 := Scalar.cmpi .ne v27 c0_i32_11
  v28

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S512x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x20 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x20 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x20 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  shapeCasts_S1700000_S1700000x1 : S1700000.ShapeCasts S1700000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S100000_S100000x1 : S100000.ShapeCasts S100000x1
  shapeCasts_S20_S1x20 : S20.ShapeCasts S1x20
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S128x20_S128x20_0_0 : ∀ a, (![0, 0] : Fin 2 → Nat) a + S128x20.size a ≤ S128x20.size a
  h_S128x20 : 0 < S128x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S512x20 : S1x20.Broadcasts S512x20
  inb_S512x20_S512x20_0_0 : ∀ a, (![0, 0] : Fin 2 → Nat) a + S512x20.size a ≤ S512x20.size a
  h_S512x20 : 0 < S512x20.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  scatter_S512_S100000x1_S100000_n_0_0_1_wf : ScatterDims.WF S512 S100000x1 S100000 [] [0] [0] 1
  gather_S50000x128_S100000x1_S100000x128_1_0_n_n_0_1_1128_wf : GatherDims.WF S50000x128 S100000x1 S100000x128 [1] [0] [] [0] [] 1 ![1, 128]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x512_S5000x128_S512x128_0_0_1_1_n_n_wf : DotDims.WF S5000x512 S5000x128 S512x128 [0] [0] [1] [1] [] []
  dot_S512x128_S128x20_S512x20_1_0_0_1_n_n_wf : DotDims.WF S512x128 S128x20 S512x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .bf16 = 32 ∨ (Rect.block (s := S1700000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .bf16 = 32 ∨ (Rect.block (s := S100000x128) S10000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S1700000x128.size a
  hwx3_0 : ∀ i : grid3.Coords, EltTy.bits .bf16 = 32 ∨ (Rect.block (s := S1700000x128) S10000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S1700000x1.size a
  hwx3_1 : ∀ i : grid3.Coords, EltTy.bits .f32 = 32 ∨ (Rect.block (s := S1700000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S1700000x128.size a
  hwx3_2 : ∀ i : grid3.Coords, EltTy.bits .f32 = 32 ∨ (Rect.block (s := S1700000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .i32 = 32 ∨ (Rect.block (s := S100000x1) S5000x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x128.size a ≤ S512x128.size a
  hwx4_3 : ∀ i : grid4.Coords, EltTy.bits .f32 = 32 ∨ (Rect.block (s := S512x128) S512x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x20.size a ≤ S128x20.size a
  hwx4_4 : ∀ i : grid4.Coords, EltTy.bits .f32 = 32 ∨ (Rect.block (s := S128x20) S128x20.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x20.size a ≤ S1x20.size a
  hwx4_5 : ∀ i : grid4.Coords, EltTy.bits .f32 = 32 ∨ (Rect.block (s := S1x20) S1x20.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x20.size a ≤ S512x20.size a
  hwx4_6 : ∀ i : grid4.Coords, EltTy.bits .f32 = 32 ∨ (Rect.block (s := S512x20) S512x20.size (cc4_transform_6 i) (hinb4_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S128x20_S512x20_1_0_0_1_n_n : DotDims S512x128 S128x20 S512x20 where
  lhsContracting := [1]
  rhsContracting := [0]
  lhsNonContracting := [0]
  rhsNonContracting := [1]
  lhsBatch := []
  rhsBatch := []
  wf := dot_S512x128_S128x20_S512x20_1_0_0_1_n_n_wf

abbrev win0_0 : Pipeline.Window sig grid0 :=
  Pipeline.Window.ofSpec (Memref.whole main_v42) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v64) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v35) S512x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S128x20.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S1x20.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73) S512x20.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S100000 : Shape := ⟨1, ![100000]⟩
abbrev S2x1600000 : Shape := ⟨2, ![2, 1600000]⟩
abbrev S50000x128 : Shape := ⟨2, ![50000, 128]⟩
abbrev S128x128 : Shape := ⟨2, ![128, 128]⟩
abbrev S128 : Shape := ⟨1, ![128]⟩
abbrev S128x20 : Shape := ⟨2, ![128, 20]⟩
abbrev S20 : Shape := ⟨1, ![20]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x128 : Shape := ⟨2, ![100000, 128]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x20 : Shape := ⟨2, ![512, 20]⟩
abbrev S1x20 : Shape := ⟨2, ![1, 20]⟩

abbrev nBuf : Space → Nat
  | .hbm => 161
  | .vmem => 0
  | .smem => 0
  | _ => 0

abbrev hbmTy0_0 (i : Nat) : BufTy := match i % 128 with
  | 0 => ⟨S100000, .i32⟩
  | 1 => ⟨S2x1600000, .i32⟩
  | 2 => ⟨S100000, .i32⟩
  | 3 => ⟨S50000x128, .f32⟩
  | 4 => ⟨S128x128, .f32⟩
  | 5 => ⟨S128, .f32⟩
  | 6 => ⟨S128x128, .f32⟩
  | 7 => ⟨S128, .f32⟩
  | 8 => ⟨S128x20, .f32⟩
  | 9 => ⟨S20, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x128, .f32⟩
  | 23 => ⟨S100000x128, .f32⟩
  | 24 => ⟨S100000, .i32⟩
  | 25 => ⟨S1700000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S100000, .i32⟩
  | 84 => ⟨S1700000, .i32⟩
  | 85 => ⟨S1700000, .i32⟩
  | 86 => ⟨S_, .f32⟩
  | 87 => ⟨S1700000, .f32⟩
  | 88 => ⟨S_, .f32⟩
  | 89 => ⟨S100000, .f32⟩
  | 90 => ⟨S1700000x1, .i32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S1700000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000x128, .f32⟩
  | _ => ⟨S100000, .i32⟩

abbrev hbmTy0_1 (i : Nat) : BufTy := match i % 128 with
  | 0 => ⟨S1700000x1, .f32⟩
  | 1 => ⟨S1700000x128, .f32⟩
  | 2 => ⟨S1700000x128, .f32⟩
  | 3 => ⟨S_, .f32⟩
  | 4 => ⟨S100000x128, .f32⟩
  | 5 => ⟨S1700000x1, .i32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S512x128, .f32⟩
  | 15 => ⟨S100000x1, .i32⟩
  | 16 => ⟨S512x128, .f32⟩
  | 17 => ⟨S_, .f32⟩
  | 18 => ⟨S100000, .f32⟩
  | 19 => ⟨S_, .f32⟩
  | 20 => ⟨S512, .f32⟩
  | 21 => ⟨S100000x1, .i32⟩
  | 22 => ⟨S512, .f32⟩
  | 23 => ⟨S_, .f32⟩
  | 24 => ⟨S512, .f32⟩
  | 25 => ⟨S512, .f32⟩
  | 26 => ⟨S512x1, .f32⟩
  | 27 => ⟨S512x128, .f32⟩
  | 28 => ⟨S512x128, .f32⟩
  | 29 => ⟨S512x20, .f32⟩
  | 30 => ⟨S1x20, .f32⟩
  | 31 => ⟨S512x20, .f32⟩
  | 32 => ⟨S512x20, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_call2_v0 : Ref sig .tc := ⟨.hbm, 97, rfl⟩
abbrev main_call2_v1 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_19 : Ref sig .tc := ⟨.hbm, 119, rfl⟩
abbrev main_v82 : Ref sig .tc := ⟨.hbm, 120, rfl⟩
abbrev main_v83 : Ref sig .tc := ⟨.hbm, 121, rfl⟩
abbrev main_c_20 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_21 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call3_cst : Ref sig .tc := ⟨.hbm, 138, rfl⟩
abbrev main_call3_v0 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_23 : Ref sig .tc := ⟨.hbm, 145, rfl⟩
abbrev main_v102 : Ref sig .tc := ⟨.hbm, 146, rfl⟩
abbrev main_cst_24 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S20_S1x20_1 : S20.BroadcastsInDim S1x20 (![1] : Fin 1 → Fin S1x20.rank)
  bcast_S1x20_S512x20_0_1 : S1x20.BroadcastsInDim S512x20 (![0, 1] : Fin 2 → Fin S512x20.rank)
  gather_S50000x128_S100000x1_S100000x128_1_0_n_n_0_1_1128_wf : GatherDims.WF S50000x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x20_S512x20_1_0_0_1_n_n_wf : DotDims.WF S512x128 S128x20 S512x20 [1] [0] [0] [1] [] []

variable [Facts₀]

def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x20_S512x20_1_0_0_1_n_n : DotDims S512x128 S128x20 S512x20 where
  lhsContracting := [1]
  rhsContracting := [0]
  lhsNonContracting := [0]
  rhsNonContracting := [1]
  lhsBatch := []
  rhsBatch := []
  wf := dot_S512x128_S128x20_S512x20_1_0_0_1_n_n_wf

class Facts : Prop extends Facts₀ where

variable [Facts]
-- ==== Proof.Spec.lean ====
import proofs.«422336_j47991964565536_1_alg».proof.Proof.Gen.ReferenceIdeal

noncomputable section

namespace Cert.Spec

open Cert.ReferenceIdeal Cert.ReferenceIdeal.Gen Idealize.ShloMosaic Idealize.ShloMosaic.TcCoe Idealize.SL.Sem Idealize.ShloMosaic.StableHlo

variable {F : FTy → Type} [FloatOps F]

abbrev TI (F : FTy → Type) (S : Shape) : Type := (⟨S, .i32⟩ : BufTy).Contents (Elt F)
abbrev TF (F : FTy → Type) (S : Shape) : Type := (⟨S, .f32⟩ : BufTy).Contents (Elt F)

-- The edges' end points with every node appended (the self loops).
def srcIdx (ei : TI F S2x1600000) : TI F S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

def dstIdx (ei : TI F S2x1600000) : TI F S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

-- A negative node index counts from the end.
def wrapE (s : TI F S1700000) : TI F S1700000 :=
  select (cmpi .slt s (broadcastInDim S1700000 ![] bcast_S_S1700000 (constantI S_ 32 0#32))) (addi s (broadcastInDim S1700000 ![] bcast_S_S1700000 (constantI S_ 32 100000#32))) s

def colE (s : TI F S1700000) : TI F S1700000x1 := broadcastInDim S1700000x1 ![0] bcast_S1700000_S1700000x1_0 s

-- In-degrees (self loop included), their inverse square roots, and each edge's symmetric weight.
def deg (d : TI F S1700000) : TF F S100000 :=
  Host.scatterAdd scatter_S100000_S1700000x1_S1700000_n_0_0_1 (broadcastInDim S100000 ![] bcast_S_S100000 (constant S_ .f32 0x00000000#32)) (colE d) (broadcastInDim S1700000 ![] bcast_S_S1700000 (constant S_ .f32 0x3F800000#32))

def dinv (d : TI F S1700000) : TF F S100000 :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

def norm (s d : TI F S1700000) : TF F S1700000 :=
  mulf (Host.gather gather_S100000_S1700000x1_S1700000_n_0_n_n_0_1_1 (dinv d) (colE (wrapE s))) (Host.gather gather_S100000_S1700000x1_S1700000_n_0_n_n_0_1_1 (dinv d) (colE (wrapE d)))

def normCol (n : TF F S1700000) : TF F S1700000x1 := broadcastInDim S1700000x1 ![0] bcast_S1700000_S1700000x1_0 n

-- The embedding lookup.
def h0 (x : TI F S100000) (emb : TF F S50000x128) : TF F S100000x128 :=
  Host.gather gather_S50000x128_S100000x1_S100000x128_1_0_n_n_0_1_1128 emb (broadcastInDim S100000x1 ![0] bcast_S100000_S100000x1_0 (select (cmpi .slt x (broadcastInDim S100000 ![] bcast_S_S100000 (constantI S_ 32 0#32))) (addi x (broadcastInDim S100000 ![] bcast_S_S100000 (constantI S_ 32 50000#32))) x))

-- One layer's pieces: project, gather along the sources, scale by the weights, accumulate at the destinations, bias and clamp.
def proj (a : TF F S100000x128) (w : TF F S128x128) : TF F S100000x128 :=
  Host.dotGeneral dot_S100000x128_S128x128_S100000x128_1_0_0_1_n_n none a w

def gatherRows (p : TF F S100000x128) (s : TI F S1700000) : TF F S1700000x128 :=
  Host.gather gather_S100000x128_S1700000x1_S1700000x128_1_0_n_n_0_1_1128 p (colE (wrapE s))

def scaleRows (g : TF F S1700000x128) (ncol : TF F S1700000x1) : TF F S1700000x128 :=
  mulf g (broadcastInDim S1700000x128 ![0, 1] bcast_S1700000x1_S1700000x128_0_1 ncol)

def agg (d : TI F S1700000) (msg : TF F S1700000x128) : TF F S100000x128 :=
  Host.scatterAdd scatter_S100000x128_S1700000x1_S1700000x128_1_0_0_1 (broadcastInDim S100000x128 ![] bcast_S_S100000x128 (constant S_ .f32 0x00000000#32)) (colE d) msg

def rowOf (b : TF F S128) : TF F S1x128 := broadcastInDim S1x128 ![1] bcast_S128_S1x128_1 b

def biasReluRow (a : TF F S100000x128) (brow : TF F S1x128) : TF F S100000x128 :=
  maximumf (addf a (broadcastInDim S100000x128 ![0, 1] bcast_S1x128_S100000x128_0_1 brow)) (broadcastInDim S100000x128 ![] bcast_S_S100000x128 (constant S_ .f32 0x00000000#32))

-- The number of nodes of each graph.
def cnts (batch : TI F S100000) : TF F S512 :=
  Host.scatterAdd scatter_S512_S100000x1_S100000_n_0_0_1 (broadcastInDim S512 ![] bcast_S_S512 (constant S_ .f32 0x00000000#32)) (broadcastInDim S100000x1 ![0] bcast_S100000_S100000x1_0 batch) (broadcastInDim S100000 ![] bcast_S_S100000 (constant S_ .f32 0x3F800000#32))

def batchCol (batch : TI F S100000) : TI F S100000x1 := broadcastInDim S100000x1 ![0] bcast_S100000_S100000x1_0 batch

def bcRow (bc : TF F S20) : TF F S1x20 := broadcastInDim S1x20 ![1] bcast_S20_S1x20_1 bc

def cntDen (batch : TI F S100000) : TF F S512x128 :=
  broadcastInDim S512x128 ![0, 1] bcast_S512x1_S512x128_0_1 (broadcastInDim S512x1 ![0] bcast_S512_S512x1_0 (maximumf (cnts batch) (broadcastInDim S512 ![] bcast_S_S512 (constant S_ .f32 0x3F800000#32))))

-- Mean pooling over the graphs, then the linear classifier.
def poolCore (h : TF F S100000x128) (bcol : TI F S100000x1) (den : TF F S512x128) (wc : TF F S128x20) (bcrow : TF F S1x20) : TF F S512x20 :=
  addf (Host.dotGeneral dot_S512x128_S128x20_S512x20_1_0_0_1_n_n none (Host.divf (Host.scatterAdd scatter_S512x128_S100000x1_S100000x128_1_0_0_1 (broadcastInDim S512x128 ![] bcast_S_S512x128 (constant S_ .f32 0x00000000#32)) bcol h) den) wc) (broadcastInDim S512x20 ![0, 1] bcast_S1x20_S512x20_0_1 bcrow)

def layer (s d : TI F S1700000) (ncol : TF F S1700000x1) (h : TF F S100000x128) (w : TF F S128x128) (b : TF F S128) : TF F S100000x128 :=
  biasReluRow (agg d (scaleRows (gatherRows (proj h w) s) ncol)) (rowOf b)

-- The classifier's scores of every graph as a function of the ten arguments.
def result (x : TI F S100000) (ei : TI F S2x1600000) (batch : TI F S100000) (emb : TF F S50000x128) (w1 : TF F S128x128) (b1 : TF F S128)
    (w2 : TF F S128x128) (b2 : TF F S128) (wc : TF F S128x20) (bc : TF F S20) : TF F S512x20 :=
  poolCore (layer (srcIdx ei) (dstIdx ei) (normCol (norm (srcIdx ei) (dstIdx ei)))
      (layer (srcIdx ei) (dstIdx ei) (normCol (norm (srcIdx ei) (dstIdx ei))) (h0 x emb) w1 b1) w2 b2)
    (batchCol batch) (cntDen batch) wc (bcRow bc)

end Cert.Spec

end
-- ==== Proof.RefSpec.lean ====
import proofs.«422336_j47991964565536_1_alg».proof.Proof.RefRun
import proofs.«422336_j47991964565536_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- The run's composed term is the composition of the named pieces: both sides unfold to the same term.
theorem res_eq (m : (ℓ : Loc nD τ sig) → Buf (Elt F) ℓ) (c : Dev nD) :
    Cert.ReferenceIdeal.Value.res_main_v114 m c
      = Cert.Spec.result (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v114 Cert.Spec.result Cert.Spec.poolCore Cert.Spec.layer Cert.Spec.biasReluRow Cert.Spec.agg
    Cert.Spec.scaleRows Cert.Spec.gatherRows Cert.Spec.proj Cert.Spec.h0 Cert.Spec.normCol Cert.Spec.norm Cert.Spec.dinv Cert.Spec.deg
    Cert.Spec.colE Cert.Spec.wrapE Cert.Spec.srcIdx Cert.Spec.dstIdx Cert.Spec.rowOf Cert.Spec.batchCol Cert.Spec.bcRow Cert.Spec.cntDen Cert.Spec.cnts
  rfl

end Cert.ReferenceIdeal.RefValue

end
-- ==== Proof.KB.Reg0.lean ====
import proofs.«422336_j47991964565536_1_alg».proof.Proof.Gen.Kernel.Launch
import proofs.«422336_j47991964565536_1_alg».proof.Proof.Gen.Kernel.Skeleton
import proofs.«422336_j47991964565536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S10000x128 := Rect.unit (s := S10000x128) ![0, 0] S10000x128.size inb_S10000x128_S10000x128_0_0
abbrev r0_w : Rect S128x128 := Rect.unit (s := S128x128) ![0, 0] S128x128.size inb_S128x128_S128x128_0_0

def out0_2 (x0 : Vec F S10000x128 .f32) (x1 : Vec F S128x128 .f32) : Vec F S10000x128 .bf16 :=
  View.canon [⟨r0_a, k0_pay1 (View.ld x0 r0_a) (View.ld x1 r0_w)⟩]

set_option maxHeartbeats 1000000 in
-- The inputs are left as found and the one store covers the output, which therefore reads back as `out0_2` of them.
theorem sound_kernel0 (c : Dev nD) (i : grid0.Coords) (a1 : Memref sig .tc .vmem S10000x128 .f32) (h1 : a1.IsWhole) (a2 : Memref sig .tc .vmem S128x128 .f32) (h2 : a2.IsWhole) (a3 : Memref sig .tc .vmem S10000x128 .bf16) (h3 : a3.IsWhole)
    (x0 : Vec F S10000x128 .f32) (x1 : Vec F S128x128 .f32) {D0 D1 D2 : Type} (g : D2 → Vec F S10000x128 .bf16) (R S : sProp 𝕄) :
    iprop(R ∗ S ∗ (∃ d : D0, owns (c : Thread nD τ) a1 fullShare x0) ∗ (∃ d : D1, owns (c : Thread nD τ) a2 fullShare x1) ∗ ∃ d, owns (c : Thread nD τ) a3 fullShare (g d))
      ⊢ wp frame (wpE (defs₀ (F := F)) Variants.none c none) Set.univ (cc0__matmul_kernel i a1 h1 a2 h2 a3 h3) fun _ =>
        iprop(R ∗ S ∗ owns (c : Thread nD τ) a1 fullShare x0 ∗ owns (c : Thread nD τ) a2 fullShare x1 ∗ owns (c : Thread nD τ) a3 fullShare (out0_2 x0 x1)) := by
  sl_unfold [cc0__matmul_kernel]
  unfold owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem body_obligation0 (c : Dev nD) : BodyObligation (dat0 (F := F) V c) (defs₀ (F := F)) Variants.none () Set.univ := fun t => by
  rw [bigSep_W0, bigSep_W0]
  sl_whnfR [defs₀, Defs.onTc]
  simp only [(dat0 V c).before_in_eq_fetched 0 rfl (fun _ => rfl) (fun _ _ _ => rfl) (fun _ => rfl),
    (dat0 V c).before_in_eq_fetched 1 rfl (fun _ => rfl) (fun _ _ _ => rfl) (fun _ => rfl)]
  rewrite [after0_2]
  exact sound_kernel0 c _ _ _ _ _ _ _ (iblk0 V c 0 t) (iblk0 V c 1 t) _ _ _

end Cert.Kernel.Hand

end
-- ==== Proof.KB.Reg1.lean ====
import proofs.«422336_j47991964565536_1_alg».proof.Proof.Gen.Kernel.Launch
import proofs.«422336_j47991964565536_1_alg».proof.Proof.Gen.Kernel.Skeleton
import proofs.«422336_j47991964565536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_g : Rect S10000x128 := Rect.unit (s := S10000x128) ![0, 0] S10000x128.size inb_S10000x128_S10000x128_0_0
abbrev r1_n : Rect S10000x1 := Rect.unit (s := S10000x1) ![0, 0] S10000x1.size inb_S10000x1_S10000x1_0_0

def out1_2 (x0 : Vec F S10000x128 .bf16) (x1 : Vec F S10000x1 .f32) : Vec F S10000x128 .f32 :=
  View.canon [⟨r1_g, k1_pay1 (View.ld x0 r1_g) (View.ld x1 r1_n)⟩]

set_option maxHeartbeats 1000000 in
-- The inputs are left as found and the one store covers the output, which therefore reads back as `out1_2` of them.
theorem sound_kernel1 (c : Dev nD) (i : grid1.Coords) (a1 : Memref sig .tc .vmem S10000x128 .bf16) (h1 : a1.IsWhole) (a2 : Memref sig .tc .vmem S10000x1 .f32) (h2 : a2.IsWhole) (a3 : Memref sig .tc .vmem S10000x128 .f32) (h3 : a3.IsWhole)
    (x0 : Vec F S10000x128 .bf16) (x1 : Vec F S10000x1 .f32) {D0 D1 D2 : Type} (g : D2 → Vec F S10000x128 .f32) (R S : sProp 𝕄) :
    iprop(R ∗ S ∗ (∃ d : D0, owns (c : Thread nD τ) a1 fullShare x0) ∗ (∃ d : D1, owns (c : Thread nD τ) a2 fullShare x1) ∗ ∃ d, owns (c : Thread nD τ) a3 fullShare (g d))
      ⊢ wp frame (wpE (defs₀ (F := F)) Variants.none c none) Set.univ (cc1__scale_kernel i a1 h1 a2 h2 a3 h3) fun _ =>
        iprop(R ∗ S ∗ owns (c : Thread nD τ) a1 fullShare x0 ∗ owns (c : Thread nD τ) a2 fullShare x1 ∗ owns (c : Thread nD τ) a3 fullShare (out1_2 x0 x1)) := by
  sl_unfold [cc1__scale_kernel]
  unfold owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem body_obligation1 (c : Dev nD) : BodyObligation (dat1 (F := F) V c) (defs₀ (F := F)) Variants.none () Set.univ := fun t => by
  rw [bigSep_W1, bigSep_W1]
  sl_whnfR [defs₀, Defs.onTc]
  simp only [(dat1 V c).before_in_eq_fetched 0 rfl (fun _ => rfl) (fun _ _ _ => rfl) (fun _ => rfl),
    (dat1 V c).before_in_eq_fetched 1 rfl (fun _ => rfl) (fun _ _ _ => rfl) (fun _ => rfl)]
  rewrite [after1_2]
  exact sound_kernel1 c _ _ _ _ _ _ _ (iblk1 V c 0 t) (iblk1 V c 1 t) _ _ _

end Cert.Kernel.Hand

end
-- ==== Proof.KB.Reg2.lean ====
import proofs.«422336_j47991964565536_1_alg».proof.Proof.Gen.Kernel.Launch
import proofs.«422336_j47991964565536_1_alg».proof.Proof.Gen.Kernel.Skeleton
import proofs.«422336_j47991964565536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S10000x128 := Rect.unit (s := S10000x128) ![0, 0] S10000x128.size inb_S10000x128_S10000x128_0_0
abbrev r2_b : Rect S1x128 := Rect.unit (s := S1x128) ![0, 0] S1x128.size inb_S1x128_S1x128_0_0
abbrev r2_w : Rect S128x128 := Rect.unit (s := S128x128) ![0, 0] S128x128.size inb_S128x128_S128x128_0_0

def out2_3 (x0 : Vec F S10000x128 .f32) (x1 : Vec F S1x128 .f32) (x2 : Vec F S128x128 .f32) : Vec F S10000x128 .bf16 :=
  View.canon [⟨r2_a, k2_pay1 (View.ld x0 r2_a) (View.ld x1 r2_b) (View.ld x2 r2_w)⟩]

set_option maxHeartbeats 1000000 in
-- The inputs are left as found and the one store covers the output, which therefore reads back as `out2_3` of them.
theorem sound_kernel2 (c : Dev nD) (i : grid2.Coords) (a1 : Memref sig .tc .vmem S10000x128 .f32) (h1 : a1.IsWhole) (a2 : Memref sig .tc .vmem S1x128 .f32) (h2 : a2.IsWhole) (a3 : Memref sig .tc .vmem S128x128 .f32) (h3 : a3.IsWhole) (a4 : Memref sig .tc .vmem S10000x128 .bf16) (h4 : a4.IsWhole)
    (x0 : Vec F S10000x128 .f32) (x1 : Vec F S1x128 .f32) (x2 : Vec F S128x128 .f32) {D0 D1 D2 D3 : Type} (g : D3 → Vec F S10000x128 .bf16) (R S : sProp 𝕄) :
    iprop(R ∗ S ∗ (∃ d : D0, owns (c : Thread nD τ) a1 fullShare x0) ∗ (∃ d : D1, owns (c : Thread nD τ) a2 fullShare x1) ∗ (∃ d : D2, owns (c : Thread nD τ) a3 fullShare x2) ∗ ∃ d, owns (c : Thread nD τ) a4 fullShare (g d))
      ⊢ wp frame (wpE (defs₀ (F := F)) Variants.none c none) Set.univ (cc2__biasrelu_matmul_kernel i a1 h1 a2 h2 a3 h3 a4 h4) fun _ =>
        iprop(R ∗ S ∗ owns (c : Thread nD τ) a1 fullShare x0 ∗ owns (c : Thread nD τ) a2 fullShare x1 ∗ owns (c : Thread nD τ) a3 fullShare x2 ∗ owns (c : Thread nD τ) a4 fullShare (out2_3 x0 x1 x2)) := by
  sl_unfold [cc2__biasrelu_matmul_kernel]
  unfold owns
  iintro ⟨HR, HS, ⟨%d0, %f0, %hf0, H0⟩, ⟨%d1, %f1, %hf1, H1⟩, ⟨%d2, %f2, %hf2, H2⟩, ⟨%d3, %f3, -, H3⟩⟩
  subst hf0 hf1 hf2
  sl_exec
  sl_step
  iframe HR HS
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S10000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2_3 (iblk2 V c 0 t) (iblk2 V c 1 t) (iblk2 V c 2 t) := by dsimp only [dat2]

theorem body_obligation2 (c : Dev nD) : BodyObligation (dat2 (F := F) V c) (defs₀ (F := F)) Variants.none () Set.univ := fun t => by
  rw [bigSep_W2, bigSep_W2]
  sl_whnfR [defs₀, Defs.onTc]
  simp only [(dat2 V c).before_in_eq_fetched 0 rfl (fun _ => rfl) (fun _ _ _ => rfl) (fun _ => rfl),
    (dat2 V c).before_in_eq_fetched 1 rfl (fun _ => rfl) (fun _ _ _ => rfl) (fun _ => rfl),
    (dat2 V c).before_in_eq_fetched 2 rfl (fun _ => rfl) (fun _ _ _ => rfl) (fun _ => rfl)]
  rewrite [after2_3]
  exact sound_kernel2 c _ _ _ _ _ _ _ _ _ (iblk2 V c 0 t) (iblk2 V c 1 t) (iblk2 V c 2 t) _ _ _

end Cert.Kernel.Hand

end
-- ==== Proof.KB.Reg3.lean ====
import proofs.«422336_j47991964565536_1_alg».proof.Proof.Gen.Kernel.Launch
import proofs.«422336_j47991964565536_1_alg».proof.Proof.Gen.Kernel.Skeleton
import proofs.«422336_j47991964565536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_g : Rect S10000x128 := Rect.unit (s := S10000x128) ![0, 0] S10000x128.size inb_S10000x128_S10000x128_0_0
abbrev r3_n : Rect S10000x1 := Rect.unit (s := S10000x1) ![0, 0] S10000x1.size inb_S10000x1_S10000x1_0_0

def out3_2 (x0 : Vec F S10000x128 .bf16) (x1 : Vec F S10000x1 .f32) : Vec F S10000x128 .f32 :=
  View.canon [⟨r3_g, k3_pay1 (View.ld x0 r3_g) (View.ld x1 r3_n)⟩]

set_option maxHeartbeats 1000000 in
-- The inputs are left as found and the one store covers the output, which therefore reads back as `out3_2` of them.
theorem sound_kernel3 (c : Dev nD) (i : grid3.Coords) (a1 : Memref sig .tc .vmem S10000x128 .bf16) (h1 : a1.IsWhole) (a2 : Memref sig .tc .vmem S10000x1 .f32) (h2 : a2.IsWhole) (a3 : Memref sig .tc .vmem S10000x128 .f32) (h3 : a3.IsWhole)
    (x0 : Vec F S10000x128 .bf16) (x1 : Vec F S10000x1 .f32) {D0 D1 D2 : Type} (g : D2 → Vec F S10000x128 .f32) (R S : sProp 𝕄) :
    iprop(R ∗ S ∗ (∃ d : D0, owns (c : Thread nD τ) a1 fullShare x0) ∗ (∃ d : D1, owns (c : Thread nD τ) a2 fullShare x1) ∗ ∃ d, owns (c : Thread nD τ) a3 fullShare (g d))
      ⊢ wp frame (wpE (defs₀ (F := F)) Variants.none c none) Set.univ (cc3__scale_kernel i a1 h1 a2 h2 a3 h3) fun _ =>
        iprop(R ∗ S ∗ owns (c : Thread nD τ) a1 fullShare x0 ∗ owns (c : Thread nD τ) a2 fullShare x1 ∗ owns (c : Thread nD τ) a3 fullShare (out3_2 x0 x1)) := by
  sl_unfold [cc3__scale_kernel]
  unfold owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]

theorem body_obligation3 (c : Dev nD) : BodyObligation (dat3 (F := F) V c) (defs₀ (F := F)) Variants.none () Set.univ := fun t => by
  rw [bigSep_W3, bigSep_W3]
  sl_whnfR [defs₀, Defs.onTc]
  simp only [(dat3 V c).before_in_eq_fetched 0 rfl (fun _ => rfl) (fun _ _ _ => rfl) (fun _ => rfl),
    (dat3 V c).before_in_eq_fetched 1 rfl (fun _ => rfl) (fun _ _ _ => rfl) (fun _ => rfl)]
  rewrite [after3_2]
  exact sound_kernel3 c _ _ _ _ _ _ _ (iblk3 V c 0 t) (iblk3 V c 1 t) _ _ _

end Cert.Kernel.Hand

end
-- ==== Proof.KB.Reg4Runs.lean ====
import proofs.«422336_j47991964565536_1_alg».proof.Proof.Gen.Kernel.Launch
import proofs.«422336_j47991964565536_1_alg».proof.Proof.Gen.Kernel.Skeleton
import proofs.«422336_j47991964565536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 20 = 0 :=
  (by decide +kernel : ∀ t : Fin grid4.N, cond4_0 (grid4.coords t) ↔ t.val % 20 = 0)

abbrev cond4_1 (i : grid4.Coords) : Prop := k4_cond2 i = 1#1

theorem hcond4_1 : ∀ t : Fin cfg4.N, cond4_1 (grid4.coords t) ↔ t.val % 20 = 19 :=
  (by decide +kernel : ∀ t : Fin grid4.N, cond4_1 (grid4.coords t) ↔ t.val % 20 = 19)

theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

abbrev VO4_6 : View sig .tc .vmem S512x20 .f32 := (Memref.whole cc4_stg6_0 : Memref sig .tc .vmem S512x20 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .i32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x20 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x20 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S512x20 .f32 := win4_6.stage (cfg4.slots t 6)
abbrev hs4_6 (t : Fin cfg4.N) : (ms4_6 t).IsWhole := hstage4_6 ((cfg4.slots t 6).cast nbuf4_6)

abbrev scM4_0 : Memref sig .tc .vmem S512x128 .f32 := Memref.whole cc4_scratch0

abbrev VS4_0 : View sig .tc .vmem S512x128 .f32 := scM4_0.view

theorem PhiA4_eq (c : Dev nD) :
    (Pipeline.ΦA spec4 c : sProp 𝕄)
      = iprop(((∃ d, owns (c : Thread nD τ) scM4_0 fullShare d) ∗ Pipeline.scopedRestBut spec4 c [cc4_scratch0]) ∗ (∃ r, prngReg c r)) := by
  unfold Pipeline.ΦA; rw [Pipeline.scopedRest_split_of_list spec4 c [cc4_scratch0] (by decide) (by decide)]
  simp only [scM4_0, owns_whole]; try rfl

theorem owns_whole_unread {sp : Space} {s : Shape} {e : EltTy} (c : Dev nD) {m : Memref sig .tc sp s e} (h : m.IsWhole)
    (q : PosShare TreeShare) (X : Vec F s e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : (m.view.loc (c : Thread nD τ) ↦[m.view.set]{q} h.unread X : sProp 𝕄) ⊢ owns (c : Thread nD τ) m q X := by
    unfold owns; iintro H; iexists _; isplitr; · ipureintro; exact h.read_unread _
    iexact H
  exact BI.equiv_iff.mp ⟨h₁, h₂⟩

end Cert.Kernel.Hand

end
-- ==== Proof.KB.Reg4A.lean ====
import proofs.«422336_j47991964565536_1_alg».proof.Proof.KB.Reg4Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun4_A (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole) (hc0 : cond4_0 i) (hc1 : ¬cond4_1 i)
    (x0 : Vec F S5000x128 .f32) (x1 : Vec F S1x128 .f32) (x2 : Vec F S5000x1 .i32) (x3 : Vec F S512x128 .f32) (x4 : Vec F S128x20 .f32) (x5 : Vec F S1x20 .f32) :
    Σ' (L6 : List (View.Piece (Elt F) S512x20 .f32)), { LS0 : List (View.Piece (Elt F) S512x128 .f32) //
      ∀ (xi6 : Vec F S512x20 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7 arg8 harg8) K } := by
  refine ⟨[], ?_, fun xi6 E K => ?run⟩
  case run =>
    simp only [cc4__pool_kernel_eq_skeleton]; unfold cc4__pool_kernel_skel
    rw [owns_whole_unread c harg1, owns_whole_unread c harg2, owns_whole_unread c harg3, owns_whole_unread c harg4, owns_whole_unread c harg5, owns_whole_unread c harg6, owns_whole_unread c harg7]; unfold owns
    iintro ⟨H0, H1, H2, H3, H4, H5, H6, ⟨%ds0, %fs0, -, HS0⟩, Hk⟩
    sl_exec (disch := first | exact hc0 | exact hc1)
    sl_step
    iapply Hk
    iframe H0 H1 H2 H3 H4 H5 H6
    iexists _; iexact HS0

end Cert.Kernel.Hand

end
-- ==== Proof.KB.Reg4B.lean ====
import proofs.«422336_j47991964565536_1_alg».proof.Proof.KB.Reg4A

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun4_B (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole) (hc0 : ¬cond4_0 i) (hc1 : ¬cond4_1 i)
    (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32) :
    Σ' (L6 : List (View.Piece (Elt F) S512x20 .f32)), { LS0 : List (View.Piece (Elt F) S512x128 .f32) //
      ∀ (xi6 : Vec F S512x20 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7 arg8 harg8) K } := by
  refine ⟨[], ?_, fun xi6 E K => ?run⟩
  case run =>
    simp only [cc4__pool_kernel_eq_skeleton]; unfold cc4__pool_kernel_skel
    rw [owns_whole_unread c harg1, owns_whole_unread c harg2, owns_whole_unread c harg3, owns_whole_unread c harg4, owns_whole_unread c harg5, owns_whole_unread c harg6, owns_whole_unread c harg7, owns_whole_unread c harg8]
    iintro ⟨H0, H1, H2, H3, H4, H5, H6, HS0, Hk⟩
    sl_exec (disch := first | exact hc0 | exact hc1)
    sl_step
    iapply Hk
    iframe H0 H1 H2 H3 H4 H5 H6
    iexists _; iexact HS0

end Cert.Kernel.Hand

end
-- ==== Proof.KB.Reg4C.lean ====
import proofs.«422336_j47991964565536_1_alg».proof.Proof.KB.Reg4B

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun4_C (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole) (hc0 : ¬cond4_0 i) (hc1 : cond4_1 i)
    (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32) :
    Σ' (L6 : List (View.Piece (Elt F) S512x20 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7 arg8 harg8) K } := by
  refine ⟨?_, ?_, fun E K => ?run⟩
  case run =>
    simp only [cc4__pool_kernel_eq_skeleton]; unfold cc4__pool_kernel_skel
    rw [owns_whole_unread c harg1, owns_whole_unread c harg2, owns_whole_unread c harg3, owns_whole_unread c harg4, owns_whole_unread c harg5, owns_whole_unread c harg6, owns_whole_unread c harg8]; unfold owns
    iintro ⟨H0, H1, H2, H3, H4, H5, ⟨%d6, %f6, -, H6⟩, HS0, Hk⟩
    sl_exec (disch := first | exact hc0 | exact hc1)
    sl_step
    iapply Hk
    iframe H0 H1 H2 H3 H4 H5
    isplitl [H6]; · iexists _; iexact H6
    iexists _; iexact HS0

end Cert.Kernel.Hand

end
-- ==== Proof.KB.Reg4.lean ====
import proofs.«422336_j47991964565536_1_alg».proof.Proof.KB.Reg4C

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole)

section
variable (hc0 : cond4_0 i) (hc1 : ¬cond4_1 i) (x0 : Vec F S5000x128 .f32) (x1 : Vec F S1x128 .f32) (x2 : Vec F S5000x1 .i32) (x3 : Vec F S512x128 .f32) (x4 : Vec F S128x20 .f32) (x5 : Vec F S1x20 .f32)

def out4_A_6 : Vec F S512x20 .f32 :=
  VO4_6.read (Elt F) (VO4_6.writes (Elt F) VO4_6.junk (kernelRun4_A c i arg1 harg1 arg2 harg2 arg3 harg3 arg4 harg4 arg5 harg5 arg6 harg6 arg7 harg7 arg8 harg8 hc0 hc1 x0 x1 x2 x3 x4 x5).1)

theorem scover4_A_0 (y : S512x128.Idx) : ∃ pc ∈ (kernelRun4_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 hc0 hc1 x0 x1 x2 x3 x4 x5).2.1 S512x128.size (by sl_kernel_rfl) y

def sout4_A_0 : Vec F S512x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 x0 x1 x2 x3 x4 x5).2.1)

end

section
variable (hc0 : ¬cond4_0 i) (hc1 : ¬cond4_1 i) (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32)

def out4_B_6 : Vec F S512x20 .f32 :=
  VO4_6.read (Elt F) (VO4_6.writes (Elt F) VO4_6.junk (kernelRun4_B c i arg1 harg1 arg2 harg2 arg3 harg3 arg4 harg4 arg5 harg5 arg6 harg6 arg7 harg7 arg8 harg8 hc0 hc1 x0 x1 x2 x3 x4 x5 xs0).1)

theorem scover4_B_0 (y : S512x128.Idx) : ∃ pc ∈ (kernelRun4_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 x4 x5 xs0).2.1 S512x128.size (by sl_kernel_rfl) y

def sout4_B_0 : Vec F S512x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 x0 x1 x2 x3 x4 x5 xs0).2.1)

end

section
variable (hc0 : ¬cond4_0 i) (hc1 : cond4_1 i) (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32)

theorem cover4_C_6 (y : S512x20.Idx) : ∃ pc ∈ (kernelRun4_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun4_C c i arg1 harg1 arg2 harg2 arg3 harg3 arg4 harg4 arg5 harg5 arg6 harg6 arg7 harg7 arg8 harg8 hc0 hc1 x0 x1 x2 x3 x4 x5 xs0).1 S512x20.size (by sl_kernel_rfl) y

def out4_C_6 : Vec F S512x20 .f32 :=
  VO4_6.read (Elt F) (VO4_6.writes (Elt F) VO4_6.junk (kernelRun4_C c i arg1 harg1 arg2 harg2 arg3 harg3 arg4 harg4 arg5 harg5 arg6 harg6 arg7 harg7 arg8 harg8 hc0 hc1 x0 x1 x2 x3 x4 x5 xs0).1)

theorem scover4_C_0 (y : S512x128.Idx) : ∃ pc ∈ (kernelRun4_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 x4 x5 xs0).2.1 S512x128.size (by sl_kernel_rfl) y

def sout4_C_0 : Vec F S512x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 x0 x1 x2 x3 x4 x5 xs0).2.1)

end

end

def outsAt4 (c : Dev nD) : (n : ℕ) → n < cfg4.N → Vec F S512x20 .f32 × Vec F S512x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 20 = 0 then
      if h1 : (n + 1) % 20 = 19 then
        False.elim (by have hN : n + 1 < 20 := lt_of_lt_of_eq hn (show cfg4.N = 20 from N_4); omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : (n + 1) % 20 = 19 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)

theorem outsAt4_A (c : Dev nD) (t : Fin cfg4.N) (h0 : t.val % 20 = 0) (h1 : ¬t.val % 20 = 19) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

theorem outsAt4_B (c : Dev nD) (t : Fin cfg4.N) (h0 : ¬t.val % 20 = 0) (h1 : ¬t.val % 20 = 19) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 20 = 0) (h1 : t.val % 20 = 19) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop((owns (c : Thread nD τ) scM4_0 fullShare ((outsAt4 V c n hn).2) ∗ Pipeline.scopedRestBut spec4 c [cc4_scratch0]) ∗ (∃ r, prngReg c r))

theorem PhiS4_pos (c : Dev nD) (n : ℕ) (h : n ≤ cfg4.N) (hz : n ≠ 0) :
    PhiS4 V c n h = iprop((owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

theorem PhiS4_zero (c : Dev nD) (n : ℕ) (h : n ≤ cfg4.N) (hz : n = 0) : PhiS4 V c n h = Pipeline.ΦA spec4 c := by
  subst hz; rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl,
    show (dat4 V c).Φ t.succ = iprop((owns (c : Thread nD τ) scM4_0 fullShare ((outsAt4 V c t.val t.isLt).2) ∗ Pipeline.scopedRestBut spec4 c [cc4_scratch0]) ∗ (∃ r, prngReg c r)) from rfl,
    PhiS4_castSucc V c t,
    show (dat4 V c).leavesExact 0 t = owns (c : Thread nD τ) (ms4_0 t) fullShare (iblk4 V c 0 t) from rfl,
    show (dat4 V c).leavesExact 1 t = owns (c : Thread nD τ) (ms4_1 t) fullShare (iblk4 V c 1 t) from rfl,
    show (dat4 V c).leavesExact 2 t = owns (c : Thread nD τ) (ms4_2 t) fullShare (iblk4 V c 2 t) from rfl,
    show (dat4 V c).leavesExact 3 t = owns (c : Thread nD τ) (ms4_3 t) fullShare (iblk4 V c 3 t) from rfl,
    show (dat4 V c).leavesExact 4 t = owns (c : Thread nD τ) (ms4_4 t) fullShare (iblk4 V c 4 t) from rfl,
    show (dat4 V c).leavesExact 5 t = owns (c : Thread nD τ) (ms4_5 t) fullShare (iblk4 V c 5 t) from rfl]
  have hN : t.val < 20 := lt_of_lt_of_eq t.isLt (show cfg4.N = 20 from N_4)
  by_cases h1 : t.val % 20 = 19
  · have h0 : ¬t.val % 20 = 0 := by omega
    rw [show (dat4 V c).leavesExact 6 t = owns (c : Thread nD τ) (ms4_6 t) fullShare ((dat4 V c).after 6 t) from by
      unfold Dat.leavesExact; rw [liveAt4_6 t ((hcond4_1 t).mpr h1)], after4_6]
    rw [outsAt4_C V c t h0 h1]
    unfold out4_C_6 sout4_C_0; (try dsimp only)
    rw [PhiS4_pos V c _ _ (by omega)]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _).2.2 Set.univ _)
    iframe H0 H1 H2 H3 H4 H5
    isplitl [H6]; · iexists _; iexact H6
    isplitl [HS0]; · iexact HS0
    iintro ⟨H0, H1, H2, H3, H4, H5, ⟨%e6, H6⟩, ⟨%es0, HS0⟩⟩
    iframe HR Hg Ho H0 H1 H2 H3 H4 H5
    isplitl [HS0]
    · unfold owns; iexists _; isplitr
      swap; · iexact HS0
      ipureintro; exact View.read_writes_of_cover _ _ _ _ _ (scover4_C_0 c _ _ _ _ _ _ _ _ _ _ _ _ _ _ _ _ _ _ _ _ _ _ _ _ _ _)
    unfold owns; iexists _; isplitr
    swap; · iexact H6
    ipureintro; exact View.read_writes_of_cover _ _ _ _ _ (cover4_C_6 c _ _ _ _ _ _ _ _ _ _ _ _ _ _ _ _ _ _ _ _ _ _ _ _ _ _)
  rw [Dat.leavesExact_idle (dat4 V c) 6 t (idleAt4_6 t (fun h => h1 ((hcond4_1 t).mp h))) (noFlush4_6 t (fun h => h1 ((hcond4_1 t).mp h)))]
  by_cases h0 : t.val % 20 = 0
  · rw [outsAt4_A V c t h0 h1]
    unfold sout4_A_0; (try dsimp only)
    rw [PhiS4_zero V c _ _ (by omega), PhiA4_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2 _ Set.univ _)
    iframe H0 H1 H2 H3 H4 H5
    isplitl [H6]; · iexact H6
    isplitl [HS0]; · iexact HS0
    iintro ⟨H0, H1, H2, H3, H4, H5, H6, ⟨%es0, HS0⟩⟩
    iframe HR Hg Ho H0 H1 H2 H3 H4 H5
    isplitl [HS0]
    · unfold owns; iexists _; isplitr
      swap; · iexact HS0
      ipureintro; exact View.read_writes_of_cover _ _ _ _ _ (scover4_A_0 c _ _ _ _ _ _ _ _ _ _ _ _ _ _ _ _ _ _ _ _ _ _ _ _ _)
    iexists _; iexact H6
  · rw [outsAt4_B V c t h0 h1]
    unfold sout4_B_0; (try dsimp only)
    rw [PhiS4_pos V c _ _ (by omega)]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _).2.2 _ Set.univ _)
    iframe H0 H1 H2 H3 H4 H5
    isplitl [H6]; · iexact H6
    isplitl [HS0]; · iexact HS0
    iintro ⟨H0, H1, H2, H3, H4, H5, H6, ⟨%es0, HS0⟩⟩
    iframe HR Hg Ho H0 H1 H2 H3 H4 H5
    isplitl [HS0]
    · unfold owns; iexists _; isplitr
      swap; · iexact HS0
      ipureintro; exact View.read_writes_of_cover _ _ _ _ _ (scover4_B_0 c _ _ _ _ _ _ _ _ _ _ _ _ _ _ _ _ _ _ _ _ _ _ _ _ _ _)
    iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]; · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 20 := N_4; omega)

end Cert.Kernel.Hand

end
-- ==== Proof.KB.Fold.lean ====
import proofs.«422336_j47991964565536_1_alg».proof.Proof.KB.Reg0
import proofs.«422336_j47991964565536_1_alg».proof.Proof.KB.Reg1
import proofs.«422336_j47991964565536_1_alg».proof.Proof.KB.Reg2
import proofs.«422336_j47991964565536_1_alg».proof.Proof.KB.Reg3
import proofs.«422336_j47991964565536_1_alg».proof.Proof.KB.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb

abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb

end Cert.Kernel.Hand

end
-- ==== Proof.KB.Run.lean ====
import proofs.«422336_j47991964565536_1_alg».proof.Proof.KB.Fold
import proofs.«422336_j47991964565536_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host stretch writes and every region leaves as entered holds at the end what it held at launch. -/
theorem kept (c : Dev nD) (s : (ℓ : Loc nD τ sig) → Buf (Elt F) ℓ)
    (h : ∀ b ∈ Pipeline.ucRefs τ sig, s ((c : Thread nD τ).1, b) = W12 m ρ c b) (r : Ref sig .tc)
    (hu : ¬ (Proc.devRef .tc r : DevRef τ sig).isScoped)
    (hh : r ∉ hostOps0_W ∧ r ∉ hostOps0_1_W ∧ r ∉ hostOps0_2_W ∧ r ∉ hostOps1_W ∧ r ∉ hostOps2_W ∧ r ∉ hostOps3_W ∧ r ∉ hostOps4_W)
    (h4 : W4 m ρ c (Proc.devRef .tc r) = W3 m ρ c (Proc.devRef .tc r))
    (h6 : W6 m ρ c (Proc.devRef .tc r) = W5 m ρ c (Proc.devRef .tc r))
    (h8 : W8 m ρ c (Proc.devRef .tc r) = W7 m ρ c (Proc.devRef .tc r))
    (h10 : W10 m ρ c (Proc.devRef .tc r) = W9 m ρ c (Proc.devRef .tc r))
    (h12 : W12 m ρ c (Proc.devRef .tc r) = W11 m ρ c (Proc.devRef .tc r)) :
    s ((c.tc : Thread nD τ).loc r) = m ((c.tc : Thread nD τ).loc r) :=
  calc s ((c.tc : Thread nD τ).loc r)
    _ = W12 m ρ c (Proc.devRef .tc r) := h _ (mem_uc r hu)
    _ = W11 m ρ c (Proc.devRef .tc r) := h12
    _ = W10 m ρ c (Proc.devRef .tc r) := StableHlo.after_of_writes_sub hostOps4 _ hostOps4_writes hh.2.2.2.2.2.2
    _ = W9 m ρ c (Proc.devRef .tc r) := h10
    _ = W8 m ρ c (Proc.devRef .tc r) := StableHlo.after_of_writes_sub hostOps3 _ hostOps3_writes hh.2.2.2.2.2.1
    _ = W7 m ρ c (Proc.devRef .tc r) := h8
    _ = W6 m ρ c (Proc.devRef .tc r) := StableHlo.after_of_writes_sub hostOps2 _ hostOps2_writes hh.2.2.2.2.1
    _ = W5 m ρ c (Proc.devRef .tc r) := h6
    _ = W4 m ρ c (Proc.devRef .tc r) := StableHlo.after_of_writes_sub hostOps1 _ hostOps1_writes hh.2.2.2.1
    _ = W3 m ρ c (Proc.devRef .tc r) := h4
    _ = W2 m ρ c (Proc.devRef .tc r) := StableHlo.after_of_writes_sub hostOps0_2 _ hostOps0_2_writes hh.2.2.1
    _ = W1 m ρ c (Proc.devRef .tc r) := StableHlo.after_of_writes_sub hostOps0_1 _ hostOps0_1_writes hh.2.1
    _ = W0 m ρ c (Proc.devRef .tc r) := StableHlo.after_of_writes_sub hostOps0 _ hostOps0_writes hh.1
    _ = m ((c : Thread nD τ).loc r) := rfl

/-- The ten arguments end as launched: none is written by a host stretch, and a region reads one only through an input window. -/
theorem args_kept (c : Dev nD) (s : (ℓ : Loc nD τ sig) → Buf (Elt F) ℓ)
    (h : ∀ b ∈ Pipeline.ucRefs τ sig, s ((c : Thread nD τ).1, b) = W12 m ρ c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9) :=
  ⟨kept m ρ c s h main_arg0 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg1 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg2 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg3 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg4 (by decide) (by decide) ((W4_arr m ρ c 1).trans (((dat0 (V3 m ρ) c).arrAt_in 1 rfl _).trans (A_eq0 (V3 m ρ) c 1))) (W6_of_ne m ρ c _ (by decide)) (W8_of_ne m ρ c _ (by decide)) (W10_of_ne m ρ c _ (by decide)) (W12_of_ne m ρ c _ (by decide)),
   kept m ρ c s h main_arg5 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg6 (by decide) (by decide) (W4_of_ne m ρ c _ (by decide)) (W6_of_ne m ρ c _ (by decide)) ((W8_arr m ρ c 2).trans (((dat2 (V7 m ρ) c).arrAt_in 2 rfl _).trans (A_eq2 (V7 m ρ) c 2))) (W10_of_ne m ρ c _ (by decide)) (W12_of_ne m ρ c _ (by decide)),
   kept m ρ c s h main_arg7 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg8 (by decide) (by decide) (W4_of_ne m ρ c _ (by decide)) (W6_of_ne m ρ c _ (by decide)) (W8_of_ne m ρ c _ (by decide)) (W10_of_ne m ρ c _ (by decide)) ((W12_arr m ρ c 4).trans (((dat4 (V11 m ρ) c).arrAt_in 4 rfl _).trans (A_eq4 (V11 m ρ) c 4))),
   kept m ρ c s h main_arg9 (by decide) (by decide) (W4_of_ne m ρ c _ (by decide)) (W6_of_ne m ρ c _ (by decide)) (W8_of_ne m ρ c _ (by decide)) (W10_of_ne m ρ c _ (by decide)) (W12_of_ne m ρ c _ (by decide))⟩

def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W12 m ρ c) ∗ ∃ r, prngReg c r)
abbrev tc (W : Dev nD → Valuation τ sig (Elt F)) (c : Dev nD) (b : Ref sig .tc) : Buf (Elt F) ((c : Thread nD τ).loc b) := W c b

set_option backward.isDefEq.respectTransparency.types false in
/-- A kernel region changes the buffers only at its arrays: entered at contents `Wi`, it is left at `Wo`, which holds the region's final arrays and agrees with `Wi` elsewhere. -/
def regOf (p : Fin 5) (lf : Pipeline.LaunchFacts (nD := nD) (τ := τ) cfgs p) (Wi Wo : Dev nD → Valuation τ sig (Elt F))
    (hsh : ∀ c w, (pdats m ρ p c).share w = fullShare) (how : ∀ c t, (pdats m ρ p c).owed t = 0)
    (hrec : ∀ c t, (pdats m ρ p c).recorded t = Set.univ)
    (hA : ∀ c w, (pdats m ρ p c).A w = tc Wi c (Pipeline.arrRef (cfgs p).spec w))
    (hF : ∀ c w, (pdats m ρ p c).arrAt w (cfgs p).N = tc Wo c (Pipeline.arrRef (cfgs p).spec w))
    (hne : ∀ c (b : Ref sig .tc), (∀ w, Pipeline.arrRef (cfgs p).spec w ≠ b) → tc Wo c b = tc Wi c b)
    (hbody : ∀ c, BodyObligation (pdats m ρ p c) (defs₀ (F := F)) Variants.none () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p how
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (tc Wi c)
  hentry c := by
    rw [Pipeline.ownSems0_none]
    have hsplit := Pipeline.arrays_of_unscopedBufs (p := p) (pcfgs (F := F)) adm (pdats m ρ) lf.win lf.arr_whole c (hsh c) (tc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [how c 0]
      icases HO with ⟨%W, HO⟩; iexists W; isplitr; · ipureintro; exact fun _ _ => Or.inl (by rw [hrec c 0]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) (hsh c) (tc Wi c) (tc Wo c) ((pdats m ρ p c).arrAt · (cfgs p).N) (hF c)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [how c (Fin.last _)]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (regOf m ρ 0 launch0 (W3 m ρ) (W4 m ρ) (fun c => (pdats m ρ 0 c).share_full fun _ => rfl) (fun _ _ => rfl) (fun _ _ => rfl) (fun _ _ => rfl)
      (fun c w => (W4_arr m ρ c w).symm) (W4_of_ne m ρ) (body_obligation0 (V3 m ρ)) (fun _ => .rfl) (fun _ => .rfl)),
    .host (hseg hostOps1 hostOps1_sub hostOps1_fresh (W4 m ρ)),
    .region (regOf m ρ 1 launch1 (W5 m ρ) (W6 m ρ) (fun c => (pdats m ρ 1 c).share_full fun _ => rfl) (fun _ _ => rfl) (fun _ _ => rfl) (fun _ _ => rfl)
      (fun c w => (W6_arr m ρ c w).symm) (W6_of_ne m ρ) (body_obligation1 (V5 m ρ)) (fun _ => .rfl) (fun _ => .rfl)),
    .host (hseg hostOps2 hostOps2_sub hostOps2_fresh (W6 m ρ)),
    .region (regOf m ρ 2 launch2 (W7 m ρ) (W8 m ρ) (fun c => (pdats m ρ 2 c).share_full fun _ => rfl) (fun _ _ => rfl) (fun _ _ => rfl) (fun _ _ => rfl)
      (fun c w => (W8_arr m ρ c w).symm) (W8_of_ne m ρ) (body_obligation2 (V7 m ρ)) (fun _ => .rfl) (fun _ => .rfl)),
    .host (hseg hostOps3 hostOps3_sub hostOps3_fresh (W8 m ρ)),
    .region (regOf m ρ 3 launch3 (W9 m ρ) (W10 m ρ) (fun c => (pdats m ρ 3 c).share_full fun _ => rfl) (fun _ _ => rfl) (fun _ _ => rfl) (fun _ _ => rfl)
      (fun c w => (W10_arr m ρ c w).symm) (W10_of_ne m ρ) (body_obligation3 (V9 m ρ)) (fun _ => .rfl) (fun _ => .rfl)),
    .host (hseg hostOps4 hostOps4_sub hostOps4_fresh (W10 m ρ)),
    .region (regOf m ρ 4 launch4 (W11 m ρ) (W12 m ρ) (fun c => (pdats m ρ 4 c).share_full fun _ => rfl) (fun _ _ => rfl) (fun _ _ => rfl) (fun _ _ => rfl)
      (fun c w => (W12_arr m ρ c w).symm) (W12_of_ne m ρ) (body_obligation4 (V11 m ρ)) (hin4 (V11 m ρ)) (hout4 (V11 m ρ))) ]

theorem main_run (c : Dev nD) : main (F := F) c = Pipeline.Seg.run (segs m ρ) := by
  rw [main_chain c, Pipeline.Seg.run_eq_chain]
  rfl

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

end Cert.Kernel.Hand

end
-- ==== Proof.KI.Reg0.lean ====
import proofs.«422336_j47991964565536_1_alg».proof.Proof.Gen.KernelIdeal.Launch
import proofs.«422336_j47991964565536_1_alg».proof.Proof.Gen.KernelIdeal.Skeleton
import proofs.«422336_j47991964565536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S10000x128 := Rect.unit (s := S10000x128) ![0, 0] S10000x128.size inb_S10000x128_S10000x128_0_0
abbrev r0_w : Rect S128x128 := Rect.unit (s := S128x128) ![0, 0] S128x128.size inb_S128x128_S128x128_0_0

def out0_2 (x0 : Vec F S10000x128 .f32) (x1 : Vec F S128x128 .f32) : Vec F S10000x128 .bf16 :=
  View.canon [⟨r0_a, k0_pay1 (View.ld x0 r0_a) (View.ld x1 r0_w)⟩]

set_option maxHeartbeats 1000000 in
-- The inputs are left as found and the one store covers the output, which therefore reads back as `out0_2` of them.
theorem sound_kernel0 (c : Dev nD) (i : grid0.Coords) (a1 : Memref sig .tc .vmem S10000x128 .f32) (h1 : a1.IsWhole) (a2 : Memref sig .tc .vmem S128x128 .f32) (h2 : a2.IsWhole) (a3 : Memref sig .tc .vmem S10000x128 .bf16) (h3 : a3.IsWhole)
    (x0 : Vec F S10000x128 .f32) (x1 : Vec F S128x128 .f32) {D0 D1 D2 : Type} (g : D2 → Vec F S10000x128 .bf16) (R S : sProp 𝕄) :
    iprop(R ∗ S ∗ (∃ d : D0, owns (c : Thread nD τ) a1 fullShare x0) ∗ (∃ d : D1, owns (c : Thread nD τ) a2 fullShare x1) ∗ ∃ d, owns (c : Thread nD τ) a3 fullShare (g d))
      ⊢ wp frame (wpE (defs₀ (F := F)) Variants.none c none) Set.univ (cc0__matmul_kernel i a1 h1 a2 h2 a3 h3) fun _ =>
        iprop(R ∗ S ∗ owns (c : Thread nD τ) a1 fullShare x0 ∗ owns (c : Thread nD τ) a2 fullShare x1 ∗ owns (c : Thread nD τ) a3 fullShare (out0_2 x0 x1)) := by
  sl_unfold [cc0__matmul_kernel]
  unfold owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem body_obligation0 (c : Dev nD) : BodyObligation (dat0 (F := F) V c) (defs₀ (F := F)) Variants.none () Set.univ := fun t => by
  rw [bigSep_W0, bigSep_W0]
  sl_whnfR [defs₀, Defs.onTc]
  simp only [(dat0 V c).before_in_eq_fetched 0 rfl (fun _ => rfl) (fun _ _ _ => rfl) (fun _ => rfl),
    (dat0 V c).before_in_eq_fetched 1 rfl (fun _ => rfl) (fun _ _ _ => rfl) (fun _ => rfl)]
  rewrite [after0_2]
  exact sound_kernel0 c _ _ _ _ _ _ _ (iblk0 V c 0 t) (iblk0 V c 1 t) _ _ _

end Cert.KernelIdeal.Hand

end
-- ==== Proof.KI.Reg1.lean ====
import proofs.«422336_j47991964565536_1_alg».proof.Proof.Gen.KernelIdeal.Launch
import proofs.«422336_j47991964565536_1_alg».proof.Proof.Gen.KernelIdeal.Skeleton
import proofs.«422336_j47991964565536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_g : Rect S10000x128 := Rect.unit (s := S10000x128) ![0, 0] S10000x128.size inb_S10000x128_S10000x128_0_0
abbrev r1_n : Rect S10000x1 := Rect.unit (s := S10000x1) ![0, 0] S10000x1.size inb_S10000x1_S10000x1_0_0

def out1_2 (x0 : Vec F S10000x128 .bf16) (x1 : Vec F S10000x1 .f32) : Vec F S10000x128 .f32 :=
  View.canon [⟨r1_g, k1_pay1 (View.ld x0 r1_g) (View.ld x1 r1_n)⟩]

set_option maxHeartbeats 1000000 in
-- The inputs are left as found and the one store covers the output, which therefore reads back as `out1_2` of them.
theorem sound_kernel1 (c : Dev nD) (i : grid1.Coords) (a1 : Memref sig .tc .vmem S10000x128 .bf16) (h1 : a1.IsWhole) (a2 : Memref sig .tc .vmem S10000x1 .f32) (h2 : a2.IsWhole) (a3 : Memref sig .tc .vmem S10000x128 .f32) (h3 : a3.IsWhole)
    (x0 : Vec F S10000x128 .bf16) (x1 : Vec F S10000x1 .f32) {D0 D1 D2 : Type} (g : D2 → Vec F S10000x128 .f32) (R S : sProp 𝕄) :
    iprop(R ∗ S ∗ (∃ d : D0, owns (c : Thread nD τ) a1 fullShare x0) ∗ (∃ d : D1, owns (c : Thread nD τ) a2 fullShare x1) ∗ ∃ d, owns (c : Thread nD τ) a3 fullShare (g d))
      ⊢ wp frame (wpE (defs₀ (F := F)) Variants.none c none) Set.univ (cc1__scale_kernel i a1 h1 a2 h2 a3 h3) fun _ =>
        iprop(R ∗ S ∗ owns (c : Thread nD τ) a1 fullShare x0 ∗ owns (c : Thread nD τ) a2 fullShare x1 ∗ owns (c : Thread nD τ) a3 fullShare (out1_2 x0 x1)) := by
  sl_unfold [cc1__scale_kernel]
  unfold owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem body_obligation1 (c : Dev nD) : BodyObligation (dat1 (F := F) V c) (defs₀ (F := F)) Variants.none () Set.univ := fun t => by
  rw [bigSep_W1, bigSep_W1]
  sl_whnfR [defs₀, Defs.onTc]
  simp only [(dat1 V c).before_in_eq_fetched 0 rfl (fun _ => rfl) (fun _ _ _ => rfl) (fun _ => rfl),
    (dat1 V c).before_in_eq_fetched 1 rfl (fun _ => rfl) (fun _ _ _ => rfl) (fun _ => rfl)]
  rewrite [after1_2]
  exact sound_kernel1 c _ _ _ _ _ _ _ (iblk1 V c 0 t) (iblk1 V c 1 t) _ _ _

end Cert.KernelIdeal.Hand

end
-- ==== Proof.KI.Reg2.lean ====
import proofs.«422336_j47991964565536_1_alg».proof.Proof.Gen.KernelIdeal.Launch
import proofs.«422336_j47991964565536_1_alg».proof.Proof.Gen.KernelIdeal.Skeleton
import proofs.«422336_j47991964565536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S10000x128 := Rect.unit (s := S10000x128) ![0, 0] S10000x128.size inb_S10000x128_S10000x128_0_0
abbrev r2_b : Rect S1x128 := Rect.unit (s := S1x128) ![0, 0] S1x128.size inb_S1x128_S1x128_0_0
abbrev r2_w : Rect S128x128 := Rect.unit (s := S128x128) ![0, 0] S128x128.size inb_S128x128_S128x128_0_0

def out2_3 (x0 : Vec F S10000x128 .f32) (x1 : Vec F S1x128 .f32) (x2 : Vec F S128x128 .f32) : Vec F S10000x128 .bf16 :=
  View.canon [⟨r2_a, k2_pay1 (View.ld x0 r2_a) (View.ld x1 r2_b) (View.ld x2 r2_w)⟩]

set_option maxHeartbeats 1000000 in
-- The inputs are left as found and the one store covers the output, which therefore reads back as `out2_3` of them.
theorem sound_kernel2 (c : Dev nD) (i : grid2.Coords) (a1 : Memref sig .tc .vmem S10000x128 .f32) (h1 : a1.IsWhole) (a2 : Memref sig .tc .vmem S1x128 .f32) (h2 : a2.IsWhole) (a3 : Memref sig .tc .vmem S128x128 .f32) (h3 : a3.IsWhole) (a4 : Memref sig .tc .vmem S10000x128 .bf16) (h4 : a4.IsWhole)
    (x0 : Vec F S10000x128 .f32) (x1 : Vec F S1x128 .f32) (x2 : Vec F S128x128 .f32) {D0 D1 D2 D3 : Type} (g : D3 → Vec F S10000x128 .bf16) (R S : sProp 𝕄) :
    iprop(R ∗ S ∗ (∃ d : D0, owns (c : Thread nD τ) a1 fullShare x0) ∗ (∃ d : D1, owns (c : Thread nD τ) a2 fullShare x1) ∗ (∃ d : D2, owns (c : Thread nD τ) a3 fullShare x2) ∗ ∃ d, owns (c : Thread nD τ) a4 fullShare (g d))
      ⊢ wp frame (wpE (defs₀ (F := F)) Variants.none c none) Set.univ (cc2__biasrelu_matmul_kernel i a1 h1 a2 h2 a3 h3 a4 h4) fun _ =>
        iprop(R ∗ S ∗ owns (c : Thread nD τ) a1 fullShare x0 ∗ owns (c : Thread nD τ) a2 fullShare x1 ∗ owns (c : Thread nD τ) a3 fullShare x2 ∗ owns (c : Thread nD τ) a4 fullShare (out2_3 x0 x1 x2)) := by
  sl_unfold [cc2__biasrelu_matmul_kernel]
  unfold owns
  iintro ⟨HR, HS, ⟨%d0, %f0, %hf0, H0⟩, ⟨%d1, %f1, %hf1, H1⟩, ⟨%d2, %f2, %hf2, H2⟩, ⟨%d3, %f3, -, H3⟩⟩
  subst hf0 hf1 hf2
  sl_exec
  sl_step
  iframe HR HS
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S10000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = out2_3 (iblk2 V c 0 t) (iblk2 V c 1 t) (iblk2 V c 2 t) := by dsimp only [dat2]

theorem body_obligation2 (c : Dev nD) : BodyObligation (dat2 (F := F) V c) (defs₀ (F := F)) Variants.none () Set.univ := fun t => by
  rw [bigSep_W2, bigSep_W2]
  sl_whnfR [defs₀, Defs.onTc]
  simp only [(dat2 V c).before_in_eq_fetched 0 rfl (fun _ => rfl) (fun _ _ _ => rfl) (fun _ => rfl),
    (dat2 V c).before_in_eq_fetched 1 rfl (fun _ => rfl) (fun _ _ _ => rfl) (fun _ => rfl),
    (dat2 V c).before_in_eq_fetched 2 rfl (fun _ => rfl) (fun _ _ _ => rfl) (fun _ => rfl)]
  rewrite [after2_3]
  exact sound_kernel2 c _ _ _ _ _ _ _ _ _ (iblk2 V c 0 t) (iblk2 V c 1 t) (iblk2 V c 2 t) _ _ _

end Cert.KernelIdeal.Hand

end
-- ==== Proof.KI.Reg3.lean ====
import proofs.«422336_j47991964565536_1_alg».proof.Proof.Gen.KernelIdeal.Launch
import proofs.«422336_j47991964565536_1_alg».proof.Proof.Gen.KernelIdeal.Skeleton
import proofs.«422336_j47991964565536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_g : Rect S10000x128 := Rect.unit (s := S10000x128) ![0, 0] S10000x128.size inb_S10000x128_S10000x128_0_0
abbrev r3_n : Rect S10000x1 := Rect.unit (s := S10000x1) ![0, 0] S10000x1.size inb_S10000x1_S10000x1_0_0

def out3_2 (x0 : Vec F S10000x128 .bf16) (x1 : Vec F S10000x1 .f32) : Vec F S10000x128 .f32 :=
  View.canon [⟨r3_g, k3_pay1 (View.ld x0 r3_g) (View.ld x1 r3_n)⟩]

set_option maxHeartbeats 1000000 in
-- The inputs are left as found and the one store covers the output, which therefore reads back as `out3_2` of them.
theorem sound_kernel3 (c : Dev nD) (i : grid3.Coords) (a1 : Memref sig .tc .vmem S10000x128 .bf16) (h1 : a1.IsWhole) (a2 : Memref sig .tc .vmem S10000x1 .f32) (h2 : a2.IsWhole) (a3 : Memref sig .tc .vmem S10000x128 .f32) (h3 : a3.IsWhole)
    (x0 : Vec F S10000x128 .bf16) (x1 : Vec F S10000x1 .f32) {D0 D1 D2 : Type} (g : D2 → Vec F S10000x128 .f32) (R S : sProp 𝕄) :
    iprop(R ∗ S ∗ (∃ d : D0, owns (c : Thread nD τ) a1 fullShare x0) ∗ (∃ d : D1, owns (c : Thread nD τ) a2 fullShare x1) ∗ ∃ d, owns (c : Thread nD τ) a3 fullShare (g d))
      ⊢ wp frame (wpE (defs₀ (F := F)) Variants.none c none) Set.univ (cc3__scale_kernel i a1 h1 a2 h2 a3 h3) fun _ =>
        iprop(R ∗ S ∗ owns (c : Thread nD τ) a1 fullShare x0 ∗ owns (c : Thread nD τ) a2 fullShare x1 ∗ owns (c : Thread nD τ) a3 fullShare (out3_2 x0 x1)) := by
  sl_unfold [cc3__scale_kernel]
  unfold owns
  iintro ⟨HR, HS, ⟨%d0, %f0, %hf0, H0⟩, ⟨%d1, %f1, %hf1, H1⟩, ⟨%d2, %f2, -, H2⟩⟩
  subst hf0 hf1
  sl_exec
  sl_step
  iframe HR HS
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]

theorem body_obligation3 (c : Dev nD) : BodyObligation (dat3 (F := F) V c) (defs₀ (F := F)) Variants.none () Set.univ := fun t => by
  rw [bigSep_W3, bigSep_W3]
  sl_whnfR [defs₀, Defs.onTc]
  simp only [(dat3 V c).before_in_eq_fetched 0 rfl (fun _ => rfl) (fun _ _ _ => rfl) (fun _ => rfl),
    (dat3 V c).before_in_eq_fetched 1 rfl (fun _ => rfl) (fun _ _ _ => rfl) (fun _ => rfl)]
  rewrite [after3_2]
  exact sound_kernel3 c _ _ _ _ _ _ _ (iblk3 V c 0 t) (iblk3 V c 1 t) _ _ _

end Cert.KernelIdeal.Hand

end
-- ==== Proof.KI.Reg4Runs.lean ====
import proofs.«422336_j47991964565536_1_alg».proof.Proof.Gen.KernelIdeal.Launch
import proofs.«422336_j47991964565536_1_alg».proof.Proof.Gen.KernelIdeal.Skeleton
import proofs.«422336_j47991964565536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 20 = 0 :=
  (by decide +kernel : ∀ t : Fin grid4.N, cond4_0 (grid4.coords t) ↔ t.val % 20 = 0)

abbrev cond4_1 (i : grid4.Coords) : Prop := k4_cond2 i = 1#1

theorem hcond4_1 : ∀ t : Fin cfg4.N, cond4_1 (grid4.coords t) ↔ t.val % 20 = 19 :=
  (by decide +kernel : ∀ t : Fin grid4.N, cond4_1 (grid4.coords t) ↔ t.val % 20 = 19)

theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → cfg4.idle 6 (grid4.coords t) = false := by decide +kernel

abbrev VO4_6 : View sig .tc .vmem S512x20 .f32 := (Memref.whole cc4_stg6_0 : Memref sig .tc .vmem S512x20 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S5000x1 .i32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x20 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x20 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S512x20 .f32 := win4_6.stage (cfg4.slots t 6)
abbrev hs4_6 (t : Fin cfg4.N) : (ms4_6 t).IsWhole := hstage4_6 ((cfg4.slots t 6).cast nbuf4_6)

abbrev scM4_0 : Memref sig .tc .vmem S512x128 .f32 := Memref.whole cc4_scratch0

abbrev VS4_0 : View sig .tc .vmem S512x128 .f32 := scM4_0.view

theorem PhiA4_eq (c : Dev nD) :
    (Pipeline.ΦA spec4 c : sProp 𝕄)
      = iprop(((∃ d, owns (c : Thread nD τ) scM4_0 fullShare d) ∗ Pipeline.scopedRestBut spec4 c [cc4_scratch0]) ∗ (∃ r, prngReg c r)) := by
  unfold Pipeline.ΦA; rw [Pipeline.scopedRest_split_of_list spec4 c [cc4_scratch0] (by decide) (by decide)]
  simp only [scM4_0, owns_whole]; try rfl

theorem owns_whole_unread {sp : Space} {s : Shape} {e : EltTy} (c : Dev nD) {m : Memref sig .tc sp s e} (h : m.IsWhole)
    (q : PosShare TreeShare) (X : Vec F s e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : (m.view.loc (c : Thread nD τ) ↦[m.view.set]{q} h.unread X : sProp 𝕄) ⊢ owns (c : Thread nD τ) m q X := by
    unfold owns; iintro H; iexists _; isplitr; · ipureintro; exact h.read_unread _
    iexact H
  exact BI.equiv_iff.mp ⟨h₁, h₂⟩

end Cert.KernelIdeal.Hand

end
-- ==== Proof.KI.Reg4A.lean ====
import proofs.«422336_j47991964565536_1_alg».proof.Proof.KI.Reg4Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun4_A (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole) (hc0 : cond4_0 i) (hc1 : ¬cond4_1 i)
    (x0 : Vec F S5000x128 .f32) (x1 : Vec F S1x128 .f32) (x2 : Vec F S5000x1 .i32) (x3 : Vec F S512x128 .f32) (x4 : Vec F S128x20 .f32) (x5 : Vec F S1x20 .f32) :
    Σ' (L6 : List (View.Piece (Elt F) S512x20 .f32)), { LS0 : List (View.Piece (Elt F) S512x128 .f32) //
      ∀ (xi6 : Vec F S512x20 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7 arg8 harg8) K } := by
  refine ⟨[], ?_, fun xi6 E K => ?run⟩
  case run =>
    simp only [cc4__pool_kernel_eq_skeleton]; unfold cc4__pool_kernel_skel
    rw [owns_whole_unread c harg1, owns_whole_unread c harg2, owns_whole_unread c harg3, owns_whole_unread c harg4, owns_whole_unread c harg5, owns_whole_unread c harg6, owns_whole_unread c harg7]; unfold owns
    iintro ⟨H0, H1, H2, H3, H4, H5, H6, ⟨%ds0, %fs0, -, HS0⟩, Hk⟩
    sl_exec (disch := first | exact hc0 | exact hc1)
    sl_step
    iapply Hk
    iframe H0 H1 H2 H3 H4 H5 H6
    iexists _; iexact HS0

end Cert.KernelIdeal.Hand

end
-- ==== Proof.KI.Reg4B.lean ====
import proofs.«422336_j47991964565536_1_alg».proof.Proof.KI.Reg4A

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun4_B (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole) (hc0 : ¬cond4_0 i) (hc1 : ¬cond4_1 i)
    (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32) :
    Σ' (L6 : List (View.Piece (Elt F) S512x20 .f32)), { LS0 : List (View.Piece (Elt F) S512x128 .f32) //
      ∀ (xi6 : Vec F S512x20 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7 arg8 harg8) K } := by
  refine ⟨[], ?_, fun xi6 E K => ?run⟩
  case run =>
    simp only [cc4__pool_kernel_eq_skeleton]; unfold cc4__pool_kernel_skel
    rw [owns_whole_unread c harg1, owns_whole_unread c harg2, owns_whole_unread c harg3, owns_whole_unread c harg4, owns_whole_unread c harg5, owns_whole_unread c harg6, owns_whole_unread c harg7, owns_whole_unread c harg8]
    iintro ⟨H0, H1, H2, H3, H4, H5, H6, HS0, Hk⟩
    sl_exec (disch := first | exact hc0 | exact hc1)
    sl_step
    iapply Hk
    iframe H0 H1 H2 H3 H4 H5 H6
    iexists _; iexact HS0

end Cert.KernelIdeal.Hand

end
-- ==== Proof.KI.Reg4C.lean ====
import proofs.«422336_j47991964565536_1_alg».proof.Proof.KI.Reg4B

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun4_C (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole) (hc0 : ¬cond4_0 i) (hc1 : cond4_1 i)
    (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32) :
    Σ' (L6 : List (View.Piece (Elt F) S512x20 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc4__pool_kernel i arg1 harg1 arg2 harg2 arg3 harg3 arg4 harg4 arg5 harg5 arg6 harg6 arg7 harg7 arg8 harg8) K } := by
  refine ⟨?_, ?_, fun E K => ?run⟩
  case run =>
    simp only [cc4__pool_kernel_eq_skeleton]; unfold cc4__pool_kernel_skel
    rw [owns_whole_unread c harg1, owns_whole_unread c harg2, owns_whole_unread c harg3, owns_whole_unread c harg4, owns_whole_unread c harg5, owns_whole_unread c harg6, owns_whole_unread c harg8]; unfold owns
    iintro ⟨H0, H1, H2, H3, H4, H5, ⟨%d6, %f6, -, H6⟩, HS0, Hk⟩
    sl_exec (disch := first | exact hc0 | exact hc1)
    sl_step
    iapply Hk
    iframe H0 H1 H2 H3 H4 H5
    isplitl [H6]; · iexists _; iexact H6
    iexists _; iexact HS0

end Cert.KernelIdeal.Hand

end
-- ==== Proof.KI.Reg4.lean ====
import proofs.«422336_j47991964565536_1_alg».proof.Proof.KI.Reg4C

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole)

section
variable (hc0 : cond4_0 i) (hc1 : ¬cond4_1 i) (x0 : Vec F S5000x128 .f32) (x1 : Vec F S1x128 .f32) (x2 : Vec F S5000x1 .i32) (x3 : Vec F S512x128 .f32) (x4 : Vec F S128x20 .f32) (x5 : Vec F S1x20 .f32)

def out4_A_6 : Vec F S512x20 .f32 :=
  VO4_6.read (Elt F) (VO4_6.writes (Elt F) VO4_6.junk (kernelRun4_A c i arg1 harg1 arg2 harg2 arg3 harg3 arg4 harg4 arg5 harg5 arg6 harg6 arg7 harg7 arg8 harg8 hc0 hc1 x0 x1 x2 x3 x4 x5).1)

theorem scover4_A_0 (y : S512x128.Idx) : ∃ pc ∈ (kernelRun4_A c i arg1 harg1 arg2 harg2 arg3 harg3 arg4 harg4 arg5 harg5 arg6 harg6 arg7 harg7 arg8 harg8 hc0 hc1 x0 x1 x2 x3 x4 x5).2.1, y ∈ pc.1.set :=
  View.cover_of_tiledL (kernelRun4_A c i arg1 harg1 arg2 harg2 arg3 harg3 arg4 harg4 arg5 harg5 arg6 harg6 arg7 harg7 arg8 harg8 hc0 hc1 x0 x1 x2 x3 x4 x5).2.1 S512x128.size (by sl_kernel_rfl) y

def sout4_A_0 : Vec F S512x128 .f32 :=
  VS4_0.read (Elt F) (VS4_0.writes (Elt F) VS4_0.junk (kernelRun4_A c i arg1 harg1 arg2 harg2 arg3 harg3 arg4 harg4 arg5 harg5 arg6 harg6 arg7 harg7 arg8 harg8 hc0 hc1 x0 x1 x2 x3 x4 x5).2.1)

end

section
variable (hc0 : ¬cond4_0 i) (hc1 : ¬cond4_1 i) (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32)

def out4_B_6 : Vec F S512x20 .f32 :=
  VO4_6.read (Elt F) (VO4_6.writes (Elt F) VO4_6.junk (kernelRun4_B c i arg1 harg1 arg2 harg2 arg3 harg3 arg4 harg4 arg5 harg5 arg6 harg6 arg7 harg7 arg8 harg8 hc0 hc1 x0 x1 x2 x3 x4 x5 xs0).1)

theorem scover4_B_0 (y : S512x128.Idx) : ∃ pc ∈ (kernelRun4_B c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun4_B c i arg1 harg1 arg2 harg2 arg3 harg3 arg4 harg4 arg5 harg5 arg6 harg6 arg7 harg7 arg8 harg8 hc0 hc1 x0 x1 x2 x3 x4 x5 xs0).2.1 S512x128.size (by sl_kernel_rfl) y

def sout4_B_0 : Vec F S512x128 .f32 :=
  VS4_0.read (Elt F) (VS4_0.writes (Elt F) VS4_0.junk (kernelRun4_B c i arg1 harg1 arg2 harg2 arg3 harg3 arg4 harg4 arg5 harg5 arg6 harg6 arg7 harg7 arg8 harg8 hc0 hc1 x0 x1 x2 x3 x4 x5 xs0).2.1)

end

section
variable (hc0 : ¬cond4_0 i) (hc1 : cond4_1 i) (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32)

theorem cover4_C_6 (y : S512x20.Idx) : ∃ pc ∈ (kernelRun4_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun4_C c i arg1 harg1 arg2 harg2 arg3 harg3 arg4 harg4 arg5 harg5 arg6 harg6 arg7 harg7 arg8 harg8 hc0 hc1 x0 x1 x2 x3 x4 x5 xs0).1 S512x20.size (by sl_kernel_rfl) y

def out4_C_6 : Vec F S512x20 .f32 :=
  VO4_6.read (Elt F) (VO4_6.writes (Elt F) VO4_6.junk (kernelRun4_C c i arg1 harg1 arg2 harg2 arg3 harg3 arg4 harg4 arg5 harg5 arg6 harg6 arg7 harg7 arg8 harg8 hc0 hc1 x0 x1 x2 x3 x4 x5 xs0).1)

theorem scover4_C_0 (y : S512x128.Idx) : ∃ pc ∈ (kernelRun4_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun4_C c i arg1 harg1 arg2 harg2 arg3 harg3 arg4 harg4 arg5 harg5 arg6 harg6 arg7 harg7 arg8 harg8 hc0 hc1 x0 x1 x2 x3 x4 x5 xs0).2.1 S512x128.size (by sl_kernel_rfl) y

def sout4_C_0 : Vec F S512x128 .f32 :=
  VS4_0.read (Elt F) (VS4_0.writes (Elt F) VS4_0.junk (kernelRun4_C c i arg1 harg1 arg2 harg2 arg3 harg3 arg4 harg4 arg5 harg5 arg6 harg6 arg7 harg7 arg8 harg8 hc0 hc1 x0 x1 x2 x3 x4 x5 xs0).2.1)

end

end

def outsAt4 (c : Dev nD) : (n : ℕ) → n < cfg4.N → Vec F S512x20 .f32 × Vec F S512x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 20 = 0 then
      if h1 : (n + 1) % 20 = 19 then
        False.elim (by have hN : n + 1 < 20 := lt_of_lt_of_eq hn (show cfg4.N = 20 from N_4); omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : (n + 1) % 20 = 19 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)

theorem outsAt4_A (c : Dev nD) (t : Fin cfg4.N) (h0 : t.val % 20 = 0) (h1 : ¬t.val % 20 = 19) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

theorem outsAt4_B (c : Dev nD) (t : Fin cfg4.N) (h0 : ¬t.val % 20 = 0) (h1 : ¬t.val % 20 = 19) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 20 = 0) (h1 : t.val % 20 = 19) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop((owns (c : Thread nD τ) scM4_0 fullShare ((outsAt4 V c n hn).2) ∗ Pipeline.scopedRestBut spec4 c [cc4_scratch0]) ∗ (∃ r, prngReg c r))

theorem PhiS4_pos (c : Dev nD) (n : ℕ) (h : n ≤ cfg4.N) (hz : n ≠ 0) :
    PhiS4 V c n h = iprop((owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

theorem PhiS4_zero (c : Dev nD) (n : ℕ) (h : n ≤ cfg4.N) (hz : n = 0) : PhiS4 V c n h = Pipeline.ΦA spec4 c := by
  subst hz; rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_6 (c : Dev nD) (t : Fin cfg4.N) : (dat4 V c).after 6 t = (outsAt4 V c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl,
    show (dat4 V c).Φ t.succ = iprop((owns (c : Thread nD τ) scM4_0 fullShare ((outsAt4 V c t.val t.isLt).2) ∗ Pipeline.scopedRestBut spec4 c [cc4_scratch0]) ∗ (∃ r, prngReg c r)) from rfl,
    PhiS4_castSucc V c t,
    show (dat4 V c).leavesExact 0 t = owns (c : Thread nD τ) (ms4_0 t) fullShare (iblk4 V c 0 t) from rfl,
    show (dat4 V c).leavesExact 1 t = owns (c : Thread nD τ) (ms4_1 t) fullShare (iblk4 V c 1 t) from rfl,
    show (dat4 V c).leavesExact 2 t = owns (c : Thread nD τ) (ms4_2 t) fullShare (iblk4 V c 2 t) from rfl,
    show (dat4 V c).leavesExact 3 t = owns (c : Thread nD τ) (ms4_3 t) fullShare (iblk4 V c 3 t) from rfl,
    show (dat4 V c).leavesExact 4 t = owns (c : Thread nD τ) (ms4_4 t) fullShare (iblk4 V c 4 t) from rfl,
    show (dat4 V c).leavesExact 5 t = owns (c : Thread nD τ) (ms4_5 t) fullShare (iblk4 V c 5 t) from rfl]
  have hN : t.val < 20 := lt_of_lt_of_eq t.isLt (show cfg4.N = 20 from N_4)
  by_cases h1 : t.val % 20 = 19
  · have h0 : ¬t.val % 20 = 0 := by omega
    rw [show (dat4 V c).leavesExact 6 t = owns (c : Thread nD τ) (ms4_6 t) fullShare ((dat4 V c).after 6 t) from by
      unfold Dat.leavesExact; rw [liveAt4_6 t ((hcond4_1 t).mpr h1)], after4_6]
    rw [outsAt4_C V c t h0 h1]
    unfold out4_C_6 sout4_C_0; (try dsimp only)
    rw [PhiS4_pos V c _ _ (by omega)]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_C c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _).2.2 Set.univ _)
    iframe H0 H1 H2 H3 H4 H5
    isplitl [H6]; · iexists _; iexact H6
    isplitl [HS0]; · iexact HS0
    iintro ⟨H0, H1, H2, H3, H4, H5, ⟨%e6, H6⟩, ⟨%es0, HS0⟩⟩
    iframe HR Hg Ho H0 H1 H2 H3 H4 H5
    isplitl [HS0]
    · unfold owns; iexists _; isplitr
      swap; · iexact HS0
      ipureintro; exact View.read_writes_of_cover _ _ _ _ _ (scover4_C_0 c _ _ _ _ _ _ _ _ _ _ _ _ _ _ _ _ _ _ _ _ _ _ _ _ _ _)
    unfold owns; iexists _; isplitr
    swap; · iexact H6
    ipureintro; exact View.read_writes_of_cover _ _ _ _ _ (cover4_C_6 c _ _ _ _ _ _ _ _ _ _ _ _ _ _ _ _ _ _ _ _ _ _ _ _ _ _)
  rw [Dat.leavesExact_idle (dat4 V c) 6 t (idleAt4_6 t (fun h => h1 ((hcond4_1 t).mp h))) (noFlush4_6 t (fun h => h1 ((hcond4_1 t).mp h)))]
  by_cases h0 : t.val % 20 = 0
  · rw [outsAt4_A V c t h0 h1]
    unfold sout4_A_0; (try dsimp only)
    rw [PhiS4_zero V c _ _ (by omega), PhiA4_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2 _ Set.univ _)
    iframe H0 H1 H2 H3 H4 H5
    isplitl [H6]; · iexact H6
    isplitl [HS0]; · iexact HS0
    iintro ⟨H0, H1, H2, H3, H4, H5, H6, ⟨%es0, HS0⟩⟩
    iframe HR Hg Ho H0 H1 H2 H3 H4 H5
    isplitl [HS0]
    · unfold owns; iexists _; isplitr
      swap; · iexact HS0
      ipureintro; exact View.read_writes_of_cover _ _ _ _ _ (scover4_A_0 c _ _ _ _ _ _ _ _ _ _ _ _ _ _ _ _ _ _ _ _ _ _ _ _ _)
    iexists _; iexact H6
  · rw [outsAt4_B V c t h0 h1]
    unfold sout4_B_0; (try dsimp only)
    rw [PhiS4_pos V c _ _ (by omega)]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _).2.2 _ Set.univ _)
    iframe H0 H1 H2 H3 H4 H5
    isplitl [H6]; · iexact H6
    isplitl [HS0]; · iexact HS0
    iintro ⟨H0, H1, H2, H3, H4, H5, H6, ⟨%es0, HS0⟩⟩
    iframe HR Hg Ho H0 H1 H2 H3 H4 H5
    isplitl [HS0]
    · unfold owns; iexists _; isplitr
      swap; · iexact HS0
      ipureintro; exact View.read_writes_of_cover _ _ _ _ _ (scover4_B_0 c _ _ _ _ _ _ _ _ _ _ _ _ _ _ _ _ _ _ _ _ _ _ _ _ _ _)
    iexists _; iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]; · iexists _; iexact HS0
    iexact HR
  iexact Hg

theorem hout4 (c : Dev nD) : (dat4 V c).Φ (Fin.last cfg4.N) ⊢ Pipeline.ΦA spec4 c :=
  Phi_out4 V c _ (by rw [Fin.val_last]; have : cfg4.N = 20 := N_4; omega)

end Cert.KernelIdeal.Hand

end
-- ==== Proof.KI.Fold.lean ====
import proofs.«422336_j47991964565536_1_alg».proof.Proof.KI.Reg0
import proofs.«422336_j47991964565536_1_alg».proof.Proof.KI.Reg1
import proofs.«422336_j47991964565536_1_alg».proof.Proof.KI.Reg2
import proofs.«422336_j47991964565536_1_alg».proof.Proof.KI.Reg3
import proofs.«422336_j47991964565536_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb

abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb

end Cert.KernelIdeal.Hand

end
-- ==== Proof.KI.Run.lean ====
import proofs.«422336_j47991964565536_1_alg».proof.Proof.KI.Fold
import proofs.«422336_j47991964565536_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host stretch writes and every region leaves as entered holds at the end what it held at launch. -/
theorem kept (c : Dev nD) (s : (ℓ : Loc nD τ sig) → Buf (Elt F) ℓ)
    (h : ∀ b ∈ Pipeline.ucRefs τ sig, s ((c : Thread nD τ).1, b) = W12 m ρ c b) (r : Ref sig .tc)
    (hu : ¬ (Proc.devRef .tc r : DevRef τ sig).isScoped)
    (hh : r ∉ hostOps0_W ∧ r ∉ hostOps0_1_W ∧ r ∉ hostOps0_2_W ∧ r ∉ hostOps1_W ∧ r ∉ hostOps2_W ∧ r ∉ hostOps3_W ∧ r ∉ hostOps4_W)
    (h4 : W4 m ρ c (Proc.devRef .tc r) = W3 m ρ c (Proc.devRef .tc r))
    (h6 : W6 m ρ c (Proc.devRef .tc r) = W5 m ρ c (Proc.devRef .tc r))
    (h8 : W8 m ρ c (Proc.devRef .tc r) = W7 m ρ c (Proc.devRef .tc r))
    (h10 : W10 m ρ c (Proc.devRef .tc r) = W9 m ρ c (Proc.devRef .tc r))
    (h12 : W12 m ρ c (Proc.devRef .tc r) = W11 m ρ c (Proc.devRef .tc r)) :
    s ((c.tc : Thread nD τ).loc r) = m ((c.tc : Thread nD τ).loc r) :=
  calc s ((c.tc : Thread nD τ).loc r)
    _ = W12 m ρ c (Proc.devRef .tc r) := h _ (mem_uc r hu)
    _ = W11 m ρ c (Proc.devRef .tc r) := h12
    _ = W10 m ρ c (Proc.devRef .tc r) := StableHlo.after_of_writes_sub hostOps4 _ hostOps4_writes hh.2.2.2.2.2.2
    _ = W9 m ρ c (Proc.devRef .tc r) := h10
    _ = W8 m ρ c (Proc.devRef .tc r) := StableHlo.after_of_writes_sub hostOps3 _ hostOps3_writes hh.2.2.2.2.2.1
    _ = W7 m ρ c (Proc.devRef .tc r) := h8
    _ = W6 m ρ c (Proc.devRef .tc r) := StableHlo.after_of_writes_sub hostOps2 _ hostOps2_writes hh.2.2.2.2.1
    _ = W5 m ρ c (Proc.devRef .tc r) := h6
    _ = W4 m ρ c (Proc.devRef .tc r) := StableHlo.after_of_writes_sub hostOps1 _ hostOps1_writes hh.2.2.2.1
    _ = W3 m ρ c (Proc.devRef .tc r) := h4
    _ = W2 m ρ c (Proc.devRef .tc r) := StableHlo.after_of_writes_sub hostOps0_2 _ hostOps0_2_writes hh.2.2.1
    _ = W1 m ρ c (Proc.devRef .tc r) := StableHlo.after_of_writes_sub hostOps0_1 _ hostOps0_1_writes hh.2.1
    _ = W0 m ρ c (Proc.devRef .tc r) := StableHlo.after_of_writes_sub hostOps0 _ hostOps0_writes hh.1
    _ = m ((c : Thread nD τ).loc r) := rfl

/-- The ten arguments end as launched: none is written by a host stretch, and a region reads one only through an input window. -/
theorem args_kept (c : Dev nD) (s : (ℓ : Loc nD τ sig) → Buf (Elt F) ℓ)
    (h : ∀ b ∈ Pipeline.ucRefs τ sig, s ((c : Thread nD τ).1, b) = W12 m ρ c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9) :=
  ⟨kept m ρ c s h main_arg0 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg1 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg2 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg3 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg4 (by decide) (by decide) ((W4_arr m ρ c 1).trans (((dat0 (V3 m ρ) c).arrAt_in 1 rfl _).trans (A_eq0 (V3 m ρ) c 1))) (W6_of_ne m ρ c _ (by decide)) (W8_of_ne m ρ c _ (by decide)) (W10_of_ne m ρ c _ (by decide)) (W12_of_ne m ρ c _ (by decide)),
   kept m ρ c s h main_arg5 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg6 (by decide) (by decide) (W4_of_ne m ρ c _ (by decide)) (W6_of_ne m ρ c _ (by decide)) ((W8_arr m ρ c 2).trans (((dat2 (V7 m ρ) c).arrAt_in 2 rfl _).trans (A_eq2 (V7 m ρ) c 2))) (W10_of_ne m ρ c _ (by decide)) (W12_of_ne m ρ c _ (by decide)),
   kept m ρ c s h main_arg7 (by decide) (by decide) (W4_of_ne m ρ c _ (by decide)) (W6_of_ne m ρ c _ (by decide)) (W8_of_ne m ρ c _ (by decide)) (W10_of_ne m ρ c _ (by decide)) (W12_of_ne m ρ c _ (by decide)),
   kept m ρ c s h main_arg8 (by decide) (by decide) (W4_of_ne m ρ c _ (by decide)) (W6_of_ne m ρ c _ (by decide)) (W8_of_ne m ρ c _ (by decide)) (W10_of_ne m ρ c _ (by decide)) ((W12_arr m ρ c 4).trans (((dat4 (V11 m ρ) c).arrAt_in 4 rfl _).trans (A_eq4 (V11 m ρ) c 4))),
   kept m ρ c s h main_arg9 (by decide) (by decide) (W4_of_ne m ρ c _ (by decide)) (W6_of_ne m ρ c _ (by decide)) (W8_of_ne m ρ c _ (by decide)) (W10_of_ne m ρ c _ (by decide)) (W12_of_ne m ρ c _ (by decide))⟩

def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W12 m ρ c) ∗ ∃ r, prngReg c r)
abbrev tc (W : Dev nD → Valuation τ sig (Elt F)) (c : Dev nD) (b : Ref sig .tc) : Buf (Elt F) ((c : Thread nD τ).loc b) := W c b

set_option backward.isDefEq.respectTransparency.types false in
/-- A kernel region changes the buffers only at its arrays: entered at contents `Wi`, it is left at `Wo`, which holds the region's final arrays and agrees with `Wi` elsewhere. -/
def regOf (p : Fin 5) (lf : Pipeline.LaunchFacts (nD := nD) (τ := τ) cfgs p) (Wi Wo : Dev nD → Valuation τ sig (Elt F))
    (hsh : ∀ c w, (pdats m ρ p c).share w = fullShare) (how : ∀ c t, (pdats m ρ p c).owed t = 0)
    (hrec : ∀ c t, (pdats m ρ p c).recorded t = Set.univ)
    (hA : ∀ c w, (pdats m ρ p c).A w = tc Wi c (Pipeline.arrRef (cfgs p).spec w))
    (hF : ∀ c w, (pdats m ρ p c).arrAt w (cfgs p).N = tc Wo c (Pipeline.arrRef (cfgs p).spec w))
    (hne : ∀ c (b : Ref sig .tc), (∀ w, Pipeline.arrRef (cfgs p).spec w ≠ b) → tc Wo c b = tc Wi c b)
    (hbody : ∀ c, BodyObligation (pdats m ρ p c) (defs₀ (F := F)) Variants.none () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p how
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (tc Wi c)
  hentry c := by
    rw [Pipeline.ownSems0_none]
    have hsplit := Pipeline.arrays_of_unscopedBufs (p := p) (pcfgs (F := F)) adm (pdats m ρ) lf.win lf.arr_whole c (hsh c) (tc Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [how c 0]
      icases HO with ⟨%W, HO⟩; iexists W; isplitr; · ipureintro; exact fun _ _ => Or.inl (by rw [hrec c 0]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) (hsh c) (tc Wi c) (tc Wo c) ((pdats m ρ p c).arrAt · (cfgs p).N) (hF c)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [how c (Fin.last _)]
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (regOf m ρ 0 launch0 (W3 m ρ) (W4 m ρ) (fun c => (pdats m ρ 0 c).share_full fun _ => rfl) (fun _ _ => rfl) (fun _ _ => rfl) (fun _ _ => rfl)
      (fun c w => (W4_arr m ρ c w).symm) (W4_of_ne m ρ) (body_obligation0 (V3 m ρ)) (fun _ => .rfl) (fun _ => .rfl)),
    .host (hseg hostOps1 hostOps1_sub hostOps1_fresh (W4 m ρ)),
    .region (regOf m ρ 1 launch1 (W5 m ρ) (W6 m ρ) (fun c => (pdats m ρ 1 c).share_full fun _ => rfl) (fun _ _ => rfl) (fun _ _ => rfl) (fun _ _ => rfl)
      (fun c w => (W6_arr m ρ c w).symm) (W6_of_ne m ρ) (body_obligation1 (V5 m ρ)) (fun _ => .rfl) (fun _ => .rfl)),
    .host (hseg hostOps2 hostOps2_sub hostOps2_fresh (W6 m ρ)),
    .region (regOf m ρ 2 launch2 (W7 m ρ) (W8 m ρ) (fun c => (pdats m ρ 2 c).share_full fun _ => rfl) (fun _ _ => rfl) (fun _ _ => rfl) (fun _ _ => rfl)
      (fun c w => (W8_arr m ρ c w).symm) (W8_of_ne m ρ) (body_obligation2 (V7 m ρ)) (fun _ => .rfl) (fun _ => .rfl)),
    .host (hseg hostOps3 hostOps3_sub hostOps3_fresh (W8 m ρ)),
    .region (regOf m ρ 3 launch3 (W9 m ρ) (W10 m ρ) (fun c => (pdats m ρ 3 c).share_full fun _ => rfl) (fun _ _ => rfl) (fun _ _ => rfl) (fun _ _ => rfl)
      (fun c w => (W10_arr m ρ c w).symm) (W10_of_ne m ρ) (body_obligation3 (V9 m ρ)) (fun _ => .rfl) (fun _ => .rfl)),
    .host (hseg hostOps4 hostOps4_sub hostOps4_fresh (W10 m ρ)),
    .region (regOf m ρ 4 launch4 (W11 m ρ) (W12 m ρ) (fun c => (pdats m ρ 4 c).share_full fun _ => rfl) (fun _ _ => rfl) (fun _ _ => rfl) (fun _ _ => rfl)
      (fun c w => (W12_arr m ρ c w).symm) (W12_of_ne m ρ) (body_obligation4 (V11 m ρ)) (hin4 (V11 m ρ)) (hout4 (V11 m ρ))) ]

theorem main_run (c : Dev nD) : main (F := F) c = Pipeline.Seg.run (segs m ρ) := by
  rw [main_chain c, Pipeline.Seg.run_eq_chain]
  rfl

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

end Cert.KernelIdeal.Hand

end
-- ==== Proof.KV.Keep.lean ====
import proofs.«422336_j47991964565536_1_alg».proof.Proof.KI.Fold
import proofs.«422336_j47991964565536_1_alg».proof.Proof.Gen.KernelIdeal.Regions

noncomputable section

namespace Cert.KernelIdeal.Val

open Idealize.ShloMosaic Idealize.ShloMosaic.TcCoe Idealize.SL.Sem
open Cert.KernelIdeal Cert.KernelIdeal.Gen Cert.KernelIdeal.Hand

variable {F : FTy → Type} [FloatOps F]
variable (m : (ℓ : Loc nD τ sig) → Buf (Elt F) ℓ) (ρ : Dev nD → PrngReg) (c : Dev nD) (b : Ref sig .tc)

-- A buffer that no item of the main function from region 0 up to region 1, …, up to the last host stretch touches.
abbrev Kept6 : Prop := (∀ w, Pipeline.arrRef spec0 w ≠ b) ∧ b ∉ hostOps1_W ∧ ∀ w, Pipeline.arrRef spec1 w ≠ b
abbrev Kept7 : Prop := Kept6 b ∧ b ∉ hostOps2_W
abbrev Kept8 : Prop := Kept7 b ∧ ∀ w, Pipeline.arrRef spec2 w ≠ b
abbrev Kept10 : Prop := Kept8 b ∧ b ∉ hostOps3_W ∧ ∀ w, Pipeline.arrRef spec3 w ≠ b
abbrev Kept11 : Prop := Kept10 b ∧ b ∉ hostOps4_W

theorem to3_from6 (h : Kept6 b) : W6 m ρ c (Proc.devRef .tc b) = W3 m ρ c (Proc.devRef .tc b) :=
  (W6_of_ne m ρ c b h.2.2).trans <| (StableHlo.after_of_writes_sub hostOps1 _ hostOps1_writes h.2.1).trans (W4_of_ne m ρ c b h.1)
theorem to3_from7 (h : Kept7 b) : W7 m ρ c (Proc.devRef .tc b) = W3 m ρ c (Proc.devRef .tc b) :=
  (StableHlo.after_of_writes_sub hostOps2 _ hostOps2_writes h.2).trans (to3_from6 m ρ c b h.1)
theorem to3_from8 (h : Kept8 b) : W8 m ρ c (Proc.devRef .tc b) = W3 m ρ c (Proc.devRef .tc b) :=
  (W8_of_ne m ρ c b h.2).trans (to3_from7 m ρ c b h.1)
theorem to3_from10 (h : Kept10 b) : W10 m ρ c (Proc.devRef .tc b) = W3 m ρ c (Proc.devRef .tc b) :=
  (W10_of_ne m ρ c b h.2.2).trans <| (StableHlo.after_of_writes_sub hostOps3 _ hostOps3_writes h.2.1).trans (to3_from8 m ρ c b h.1)
theorem to3_from11 (h : Kept11 b) : W11 m ρ c (Proc.devRef .tc b) = W3 m ρ c (Proc.devRef .tc b) :=
  (StableHlo.after_of_writes_sub hostOps4 _ hostOps4_writes h.2).trans (to3_from10 m ρ c b h.1)

-- An argument, which the first three host stretches do not write, is found as the launch found it.
theorem to0_from3 (h : b ∉ hostOps0_W ∧ b ∉ hostOps0_1_W ∧ b ∉ hostOps0_2_W) :
    W3 m ρ c (Proc.devRef .tc b) = m ((c : Thread nD τ).loc b) :=
  (StableHlo.after_of_writes_sub hostOps0_2 _ hostOps0_2_writes h.2.2).trans <|
    (StableHlo.after_of_writes_sub hostOps0_1 _ hostOps0_1_writes h.2.1).trans
      (StableHlo.after_of_writes_sub hostOps0 _ hostOps0_writes h.1)

end Cert.KernelIdeal.Val

end
-- ==== Proof.KV.Host.lean ====
import proofs.«422336_j47991964565536_1_alg».proof.Proof.Gen.KernelIdeal.Launch
import proofs.«422336_j47991964565536_1_alg».proof.Proof.Spec
import proofs.«422336_j47991964565536_1_alg».proof.Proof.Gen.KernelIdeal.Regions
import Idealize.ShloMosaic.Lib.StableHlo.Run
import Idealize.ShloMosaic.Lib.Pipeline.Value
import Idealize.ShloMosaic.Lib.ValueLayout

noncomputable section

namespace Cert.KernelIdeal.Val

open Idealize.ShloMosaic Idealize.ShloMosaic.TcCoe
open Idealize.SL.Sem Idealize.ShloMosaic.StableHlo
open Cert.KernelIdeal Cert.KernelIdeal.Gen Idealize.ShloMosaic.ValueIdx
open Cert.Spec (TI TF)

section Layout
variable {α : Type}

theorem shapeCast_col_eq_broadcastInDim {n : Nat} (x : (⟨1, ![n]⟩ : Shape).Idx → α)
    (hc : (⟨1, ![n]⟩ : Shape).ShapeCasts ⟨2, ![n, 1]⟩) (hb : (⟨1, ![n]⟩ : Shape).BroadcastsInDim ⟨2, ![n, 1]⟩ ![0]) :
    shapeCast ⟨2, ![n, 1]⟩ x hc = broadcastInDim ⟨2, ![n, 1]⟩ ![0] hb x := by
  funext j
  have h1 := idx2_lt1 j
  have h0 := idx2_lt0 j
  refine (shapeCast_apply x hc j (ix1 ⟨(j 0).val, h0⟩) ?_).trans
    (broadcastInDim_apply ![0] hb x j (ix1 ⟨(j 0).val, h0⟩) fun a => ?_).symm
  · rw [Shape.rowMajor_val_one, Shape.rowMajor_val_two]
    show (j 0).val = (j 0).val * 1 + (j 1).val
    omega
  · match a with
    | ⟨0, _⟩ =>
      show (j 0).val = if n = 1 then 0 else (j 0).val
      split <;> omega

theorem shapeCast_row_eq_broadcastInDim {n : Nat} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, i, rfl⟩ : ∃ (u : Fin 1) (i : Fin n), j = ix2 u i := ⟨j 0, j 1, eq_ix2 j⟩
  have hi := i.isLt
  refine (shapeCast_a_1a_apply x hc u i).trans (broadcastInDim_apply ![1] hb x _ (ix1 i) fun a => ?_).symm
  match a with
  | ⟨0, _⟩ =>
    show i.val = if n = 1 then 0 else i.val
    split <;> omega

end Layout

theorem max_one_spread_eq {F : FTy → Type} [FloatOps F] (x : Cert.Spec.TF F S512)
    (h2 : S512x1.BroadcastsInDim S512x128 ![0, 1]) (h1 : S512.BroadcastsInDim S512x1 ![0])
    (h0 : S_.BroadcastsInDim S512x128 ![]) (h0' : S_.BroadcastsInDim S512 ![]) :
    maximumf (broadcastInDim S512x128 ![0, 1] h2 (broadcastInDim S512x1 ![0] h1 x))
        (broadcastInDim S512x128 ![] h0 (constant S_ .f32 0x3F800000#32))
      = broadcastInDim S512x128 ![0, 1] h2 (broadcastInDim S512x1 ![0] h1
          (maximumf x (broadcastInDim S512 ![] h0' (constant S_ .f32 0x3F800000#32)))) := by
  funext j
  rfl

variable (U : Valuation τ sig (Elt Ideal))

theorem stretch0_src :
    @Eq (TI Ideal S1700000) (StableHlo.after (hostOps0 (F := Ideal)) U (Proc.devRef .tc main_v5))
      (Cert.Spec.srcIdx (F := Ideal) (U (Proc.devRef .tc main_arg1))) := by
  after_results
  rfl

theorem stretch0_dst :
    @Eq (TI Ideal S1700000) (StableHlo.after (hostOps0 (F := Ideal)) U (Proc.devRef .tc main_v6))
      (Cert.Spec.dstIdx (F := Ideal) (U (Proc.devRef .tc main_arg1))) := by
  after_results
  rfl

theorem stretch0_pos :
    @Eq ((⟨S100000, .i1⟩ : BufTy).Contents (Elt Ideal)) (StableHlo.after (hostOps0 (F := Ideal)) U (Proc.devRef .tc main_v12))
      (cmpf (F := Ideal) .ogt (Cert.Spec.deg (F := Ideal) (Cert.Spec.dstIdx (F := Ideal) (U (Proc.devRef .tc main_arg1))))
          (broadcastInDim S100000 ![] bcast_S_S100000 (constant (F := Ideal) S_ .f32 0x00000000#32))) := by
  after_results
  rfl

theorem stretch0_rsqrt :
    @Eq (TF Ideal S100000) (StableHlo.after (hostOps0 (F := Ideal)) U (Proc.devRef .tc main_v13))
      (Host.rsqrt (F := Ideal) (φ := .f32) (Cert.Spec.deg (F := Ideal) (Cert.Spec.dstIdx (F := Ideal) (U (Proc.devRef .tc main_arg1))))) := by
  after_results
  rfl

theorem stretch0_zero :
    @Eq (TF Ideal S_) (StableHlo.after (hostOps0 (F := Ideal)) U (Proc.devRef .tc main_cst_2))
      (constant (F := Ideal) S_ .f32 0x00000000#32) := by
  after_results

theorem stretch1_dinv :
    @Eq (TF Ideal S100000) (StableHlo.after (hostOps0_1 (F := Ideal)) U (Proc.devRef .tc main_v14))
      (select (U (Proc.devRef .tc main_v12) : (⟨S100000, .i1⟩ : BufTy).Contents (Elt Ideal))
        (U (Proc.devRef .tc main_v13) : TF Ideal S100000)
        (broadcastInDim S100000 ![] bcast_S_S100000 (id (U (Proc.devRef .tc main_cst_2) : TF Ideal S_)))) := by
  after_results
  rfl

theorem stretch1_keeps (r : Ref sig .tc) (h : r ∉ hostOps0_1_W) :
    StableHlo.after (hostOps0_1 (F := Ideal)) U (Proc.devRef .tc r) = U (Proc.devRef .tc r) :=
  StableHlo.after_of_writes_sub hostOps0_1 _ hostOps0_1_writes h

theorem stretch0_keeps (r : Ref sig .tc) (h : r ∉ hostOps0_W) :
    StableHlo.after (hostOps0 (F := Ideal)) U (Proc.devRef .tc r) = U (Proc.devRef .tc r) :=
  StableHlo.after_of_writes_sub hostOps0 _ hostOps0_writes h

theorem stretch2_keeps (r : Ref sig .tc) (h : r ∉ hostOps0_2_W) :
    StableHlo.after (hostOps0_2 (F := Ideal)) U (Proc.devRef .tc r) = U (Proc.devRef .tc r) :=
  StableHlo.after_of_writes_sub hostOps0_2 _ hostOps0_2_writes h

theorem stretch2_norm :
    @Eq (TF Ideal S1700000) (StableHlo.after (hostOps0_2 (F := Ideal)) U (Proc.devRef .tc main_v29))
      (mulf (F := Ideal) (φ := .f32) (Host.gather gather_S100000_S1700000x1_S1700000_n_0_n_n_0_1_1 (U (Proc.devRef .tc main_v14) : TF Ideal S100000)
          (Cert.Spec.colE (F := Ideal) (Cert.Spec.wrapE (F := Ideal) (U (Proc.devRef .tc main_v5)))))
        (Host.gather gather_S100000_S1700000x1_S1700000_n_0_n_n_0_1_1 (U (Proc.devRef .tc main_v14) : TF Ideal S100000)
          (Cert.Spec.colE (F := Ideal) (Cert.Spec.wrapE (F := Ideal) (U (Proc.devRef .tc main_v6)))))) := by
  after_results_simp
  rfl

theorem stretch2_counts :
    @Eq (TF Ideal S512x128) (StableHlo.after (hostOps0_2 (F := Ideal)) U (Proc.devRef .tc main_v35))
      (broadcastInDim S512x128 ![0, 1] bcast_S512x1_S512x128_0_1 (broadcastInDim S512x1 ![0] bcast_S512_S512x1_0
        (Cert.Spec.cnts (F := Ideal) (U (Proc.devRef .tc main_arg2))))) := by
  after_results
  rfl

theorem stretch2_embed :
    @Eq (TF Ideal S100000x128) (StableHlo.after (hostOps0_2 (F := Ideal)) U (Proc.devRef .tc main_v42))
      (Cert.Spec.h0 (F := Ideal) (U (Proc.devRef .tc main_arg0)) (U (Proc.devRef .tc main_arg3))) := by
  after_results_simp
  rfl

theorem src_idx_eq :
    @Eq (TI Ideal S1700000) (StableHlo.after (hostOps0_2 (F := Ideal)) (StableHlo.after (hostOps0_1 (F := Ideal)) (StableHlo.after (hostOps0 (F := Ideal)) U))
        (Proc.devRef .tc main_v5))
      (Cert.Spec.srcIdx (F := Ideal) (U (Proc.devRef .tc main_arg1))) := by
  rw [stretch2_keeps _ main_v5 (by decide), stretch1_keeps _ main_v5 (by decide)]
  exact stretch0_src U

theorem dst_idx_eq :
    @Eq (TI Ideal S1700000) (StableHlo.after (hostOps0_2 (F := Ideal)) (StableHlo.after (hostOps0_1 (F := Ideal)) (StableHlo.after (hostOps0 (F := Ideal)) U))
        (Proc.devRef .tc main_v6))
      (Cert.Spec.dstIdx (F := Ideal) (U (Proc.devRef .tc main_arg1))) := by
  rw [stretch2_keeps _ main_v6 (by decide), stretch1_keeps _ main_v6 (by decide)]
  exact stretch0_dst U

theorem norm_eq :
    @Eq (TF Ideal S1700000) (StableHlo.after (hostOps0_2 (F := Ideal)) (StableHlo.after (hostOps0_1 (F := Ideal)) (StableHlo.after (hostOps0 (F := Ideal)) U))
        (Proc.devRef .tc main_v29))
      (Cert.Spec.norm (F := Ideal) (Cert.Spec.srcIdx (F := Ideal) (U (Proc.devRef .tc main_arg1)))
          (Cert.Spec.dstIdx (F := Ideal) (U (Proc.devRef .tc main_arg1)))) := by
  rw [stretch2_norm, stretch1_dinv, stretch1_keeps _ main_v5 (by decide), stretch1_keeps _ main_v6 (by decide),
    stretch0_src, stretch0_dst, stretch0_pos, stretch0_rsqrt, stretch0_zero]
  rfl

theorem counts_spread_eq :
    @Eq (TF Ideal S512x128) (StableHlo.after (hostOps0_2 (F := Ideal)) (StableHlo.after (hostOps0_1 (F := Ideal)) (StableHlo.after (hostOps0 (F := Ideal)) U))
        (Proc.devRef .tc main_v35))
      (broadcastInDim S512x128 ![0, 1] bcast_S512x1_S512x128_0_1 (broadcastInDim S512x1 ![0] bcast_S512_S512x1_0
        (Cert.Spec.cnts (F := Ideal) (U (Proc.devRef .tc main_arg2))))) := by
  rw [stretch2_counts, stretch1_keeps _ main_arg2 (by decide), stretch0_keeps _ main_arg2 (by decide)]

theorem embedded_eq :
    @Eq (TF Ideal S100000x128) (StableHlo.after (hostOps0_2 (F := Ideal)) (StableHlo.after (hostOps0_1 (F := Ideal)) (StableHlo.after (hostOps0 (F := Ideal)) U))
        (Proc.devRef .tc main_v42))
      (Cert.Spec.h0 (F := Ideal) (U (Proc.devRef .tc main_arg0)) (U (Proc.devRef .tc main_arg3))) := by
  rw [stretch2_embed, stretch1_keeps _ main_arg0 (by decide), stretch1_keeps _ main_arg3 (by decide),
    stretch0_keeps _ main_arg0 (by decide), stretch0_keeps _ main_arg3 (by decide)]

theorem gathered1_eq :
    (StableHlo.after (hostOps1 (F := Ideal)) U (Proc.devRef .tc main_v50) : S1700000x128.Idx → EReal)
      = Cert.Spec.gatherRows (F := Ideal) (U (Proc.devRef .tc main_v43)) (U (Proc.devRef .tc main_v5)) := by
  after_results
  rfl

theorem norm_col1_eq :
    (StableHlo.after (hostOps1 (F := Ideal)) U (Proc.devRef .tc main_v51) : S1700000x1.Idx → EReal)
      = Cert.Spec.normCol (F := Ideal) (U (Proc.devRef .tc main_v29)) := by
  after_results
  exact shapeCast_col_eq_broadcastInDim _ _ _

theorem aggregated1_eq :
    (StableHlo.after (hostOps2 (F := Ideal)) U (Proc.devRef .tc main_v55) : S100000x128.Idx → EReal)
      = Cert.Spec.agg (F := Ideal) (U (Proc.devRef .tc main_v6)) (U (Proc.devRef .tc main_v52)) := by
  after_results
  rfl

theorem bias_row1_eq :
    (StableHlo.after (hostOps2 (F := Ideal)) U (Proc.devRef .tc main_v56) : S1x128.Idx → EReal)
      = Cert.Spec.rowOf (F := Ideal) (U (Proc.devRef .tc main_arg5)) := by
  after_results
  exact shapeCast_row_eq_broadcastInDim _ _ _

theorem gathered2_eq :
    (StableHlo.after (hostOps3 (F := Ideal)) U (Proc.devRef .tc main_v64) : S1700000x128.Idx → EReal)
      = Cert.Spec.gatherRows (F := Ideal) (U (Proc.devRef .tc main_v57)) (U (Proc.devRef .tc main_v5)) := by
  after_results
  rfl

theorem norm_col2_eq :
    (StableHlo.after (hostOps3 (F := Ideal)) U (Proc.devRef .tc main_v65) : S1700000x1.Idx → EReal)
      = Cert.Spec.normCol (F := Ideal) (U (Proc.devRef .tc main_v29)) := by
  after_results
  exact shapeCast_col_eq_broadcastInDim _ _ _

theorem aggregated2_eq :
    (StableHlo.after (hostOps4 (F := Ideal)) U (Proc.devRef .tc main_v69) : S100000x128.Idx → EReal)
      = Cert.Spec.agg (F := Ideal) (U (Proc.devRef .tc main_v6)) (U (Proc.devRef .tc main_v66)) := by
  after_results
  rfl

theorem bias_row2_eq :
    (StableHlo.after (hostOps4 (F := Ideal)) U (Proc.devRef .tc main_v70) : S1x128.Idx → EReal)
      = Cert.Spec.rowOf (F := Ideal) (U (Proc.devRef .tc main_arg7)) := by
  after_results
  exact shapeCast_row_eq_broadcastInDim _ _ _

theorem batch_col4_eq :
    (StableHlo.after (hostOps4 (F := Ideal)) U (Proc.devRef .tc main_v71) : S100000x1.Idx → BitVec 32)
      = Cert.Spec.batchCol (F := Ideal) (U (Proc.devRef .tc main_arg2)) := by
  after_results
  exact shapeCast_col_eq_broadcastInDim _ _ _

theorem classifier_bias_row4_eq :
    (StableHlo.after (hostOps4 (F := Ideal)) U (Proc.devRef .tc main_v72) : S1x20.Idx → EReal)
      = Cert.Spec.bcRow (F := Ideal) (U (Proc.devRef .tc main_arg9)) := by
  after_results
  exact shapeCast_row_eq_broadcastInDim _ _ _

end Cert.KernelIdeal.Val

end
-- ==== Proof.KV.Fin0.lean ====
import proofs.«422336_j47991964565536_1_alg».proof.Proof.KI.Reg0
import proofs.«422336_j47991964565536_1_alg».proof.Proof.Spec
import Idealize.ShloMosaic.Lib.Pipeline.Value
import Idealize.ShloMosaic.Lib.StackMember
import Idealize.ShloMosaic.Lib.KernelVsHost

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem dotK_eq : dot_S10000x128_S128x128_S10000x128_1_0_0_1_n_n = DotDims.plain 10000 128 128 := rfl
theorem dotR_eq : Cert.ReferenceIdeal.dot_S100000x128_S128x128_S100000x128_1_0_0_1_n_n = DotDims.plain 100000 128 128 := rfl

-- A product accumulated from zero is the plain sum of products.
theorem pay0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  simp only [shapeCast_self]
  refine (congrFun (matmul_zero_eq_dotGeneral _ none _ _) (ix2 p q)).trans ?_
  rw [dotK_eq]
  exact StackMember.dotGeneral_plain_apply none _ _ p q

theorem proj_apply (a : Cert.Spec.TF Ideal Cert.ReferenceIdeal.S100000x128) (w : Cert.Spec.TF Ideal Cert.ReferenceIdeal.S128x128) (p : Fin 100000) (q : Fin 128) :
    Cert.Spec.proj (F := Ideal) a w (ix2 p q) = ∑ k : Fin 128, a (ix2 p k) * w (ix2 k q) := by
  unfold Cert.Spec.proj
  rw [dotR_eq]
  exact StackMember.dotGeneral_plain_apply none _ _ p q

theorem hz : (![0, 0] : Fin 2 → Nat) = fun _ => 0 := funext fun a => by fin_cases a <;> rfl

-- An index lies, on both axes, within the block of 10000 rows numbered by its row's quotient by 10000.
theorem mem_rowBlock {n0 : ℕ} (i : (⟨2, ![n0, 128]⟩ : Shape).Idx) (idx : Fin 2 → ℕ) (h0 : idx 0 = (i 0).val / 10000) (h1 : idx 1 = 0) :
    ∀ a : Fin 2, idx a * S10000x128.size a ≤ (i a).val ∧ (i a).val < idx a * S10000x128.size a + S10000x128.size a
  | ⟨0, _⟩ => by show idx 0 * 10000 ≤ (i 0).val ∧ (i 0).val < idx 0 * 10000 + 10000; omega
  | ⟨1, _⟩ => by
    have h : (i 1).val < 128 := (i 1).isLt
    show idx 1 * 128 ≤ (i 1).val ∧ (i 1).val < idx 1 * 128 + 128; omega

def rowAt (b : Nat) (hb : b ≤ 9) (p : Fin 10000) : Fin 100000 := ⟨b * 10000 + p.val, by have := p.isLt; omega⟩

variable (V : (c : Dev nD) → (b : Ref sig .tc) → Buf (Elt Ideal) ((c : Thread nD τ).loc b))

theorem idx_facts0 : ∀ t : Fin cfg0.N,
    win0_0.index t (0 : Fin 2) = win0_2.index t (0 : Fin 2)
  ∧ win0_0.index t (1 : Fin 2) = 0
  ∧ win0_1.index t (0 : Fin 2) = 0 ∧ win0_1.index t (1 : Fin 2) = 0
  ∧ win0_2.index t (1 : Fin 2) = 0 ∧ win0_2.index t (0 : Fin 2) ≤ 9 :=
  (by decide +kernel : ∀ t : Fin grid0.N, _)

theorem idx_onto0 : ∀ q0 : Fin 10, ∃ t : Fin cfg0.N, win0_2.index t = ![q0.val, 0] :=
  (by decide +kernel : ∀ q0 : Fin 10, ∃ t : Fin grid0.N, win0_2.index t = ![q0.val, 0])

-- Row p of block b is row 10000 b + p of the array, so entry (p, q) of the block's product is entry (10000 b + p, q) of the whole product.
theorem flushed0_eq (c : Dev nD) (t : Fin cfg0.N) :
    (dat0 (F := Ideal) V c).flushed 2 t = ((cfg0.win 2).blk t).view.read (Elt Ideal) (Cert.Spec.proj (F := Ideal) (V c main_v42) (V c main_arg4)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q) = Cert.Spec.proj (F := Ideal) (V c main_v42) (V c main_arg4) (((cfg0.win 2).blk t).view.emb (ix2 p q))
  have h2 : ((cfg0.win 2).blk t).view.emb (ix2 p q) = ix2 (rowAt _ e5 p) q :=
    Shape.idx_ext₂ (show win0_2.index t (0 : Fin 2) * 10000 + 1 * p.val = win0_2.index t (0 : Fin 2) * 10000 + p.val by omega)
      (show win0_2.index t (1 : Fin 2) * 128 + 1 * q.val = q.val by omega)
  rw [h2, pay0_apply, proj_apply]
  refine Finset.sum_congr rfl fun k _ => ?_
  have h0 : ((cfg0.win 0).blk t).view.emb (ix2 p k) = ix2 (rowAt _ e5 p) k :=
    Shape.idx_ext₂ (show win0_0.index t (0 : Fin 2) * 10000 + 1 * p.val = win0_2.index t (0 : Fin 2) * 10000 + p.val by omega)
      (show win0_0.index t (1 : Fin 2) * 128 + 1 * k.val = k.val by omega)
  have h1 : ((cfg0.win 1).blk t).view.emb (ix2 k q) = ix2 k q :=
    Shape.idx_ext₂ (show win0_1.index t (0 : Fin 2) * 128 + 1 * k.val = k.val by omega)
      (show win0_1.index t (1 : Fin 2) * 128 + 1 * q.val = q.val by omega)
  exact congrArg₂ (fun (x y : EReal) => x * y) (congrArg (V c main_v42) h0) (congrArg (V c main_arg4) h1)

theorem covered0 (i : S100000x128.Idx) : ∃ t : Fin cfg0.N, (cfg0.win 2).flush t = true ∧ i ∈ ((cfg0.win 2).blk t).view.set := by
  have hi0 : (i 0).val < 100000 := (i 0).isLt
  obtain ⟨t, ht⟩ := idx_onto0 ⟨(i 0).val / 10000, by omega⟩
  refine ⟨t, flush0_2 t, ?_⟩
  show i ∈ ((View.whole main_v43).slice (win0_2.rect t)).set
  rw [View.set_slice_whole, Rect.mem_set_unit]
  exact mem_rowBlock i _ (congrFun ht 0) (congrFun ht 1)

theorem final0 (c : Dev nD) : (dat0 (F := Ideal) V c).arrAt 2 cfg0.N = Cert.Spec.proj (F := Ideal) (V c main_v42) (V c main_arg4) :=
  (dat0 V c).arrAt_eq_of_cover 2 _ (fun t _ => flushed0_eq V c t) covered0

end Cert.KernelIdeal.Val

end
-- ==== Proof.KV.Fin1.lean ====
import proofs.«422336_j47991964565536_1_alg».proof.Proof.KI.Reg1
import proofs.«422336_j47991964565536_1_alg».proof.Proof.KV.Fin0
import proofs.«422336_j47991964565536_1_alg».proof.Proof.Spec
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand Idealize.ShloMosaic.ValueIdx

variable (V : (c : Dev nD) → (b : Ref sig .tc) → Buf (Elt Ideal) ((c : Thread nD τ).loc b))

theorem colTo_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem colIn_apply {α : Type} {a b : ℕ} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

theorem pay1_apply (x0 : Vec Ideal S10000x128 .bf16) (x1 : Vec Ideal S10000x1 .f32) (p : Fin 10000) (q : Fin 128) :
    k1_pay1 x0 x1 (ix2 p q) = (x0 (ix2 p q) : EReal) * (x1 (ix2 p (0 : Fin 1)) : EReal) := by
  unfold k1_pay1
  rw [mulf_apply, extf_apply, shapeCast_self, shapeCast_self, colTo_apply]

theorem scaleRows_apply (g : Cert.Spec.TF Ideal Cert.ReferenceIdeal.S1700000x128) (n : Cert.Spec.TF Ideal Cert.ReferenceIdeal.S1700000x1)
    (P : Fin 1700000) (q : Fin 128) :
    Cert.Spec.scaleRows (F := Ideal) g n (ix2 P q) = (g (ix2 P q) : EReal) * (n (ix2 P (0 : Fin 1)) : EReal) := by
  unfold Cert.Spec.scaleRows
  rw [mulf_apply, colIn_apply]

theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

-- All three blocks of point t are the rows 10000 t … 10000 t + 9999 of their arrays.
theorem flushed1_eq (c : Dev nD) (t : Fin cfg1.N) :
    (dat1 (F := Ideal) V c).flushed 2 t
      = ((cfg1.win 2).blk t).view.read (Elt Ideal) (Cert.Spec.scaleRows (F := Ideal) (V c main_v50) (V c main_v51)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5⟩ := index_facts1 t
  have ht : t.val < 170 := lt_of_lt_of_eq t.isLt N_1
  funext j
  obtain ⟨p, q, rfl⟩ : ∃ (p : Fin 10000) (q : Fin 128), j = ix2 p q := ⟨j 0, j 1, eq_ix2 j⟩
  have hp := p.isLt
  obtain ⟨P, hP⟩ : ∃ P : Fin 1700000, P.val = t.val * 10000 + p.val := ⟨⟨_, by omega⟩, rfl⟩
  show k1_pay1 (iblk1 V c 0 t) (iblk1 V c 1 t) (ix2 p q)
    = Cert.Spec.scaleRows (F := Ideal) (V c main_v50) (V c main_v51) (((cfg1.win 2).blk t).view.emb (ix2 p q))
  have h2 : ((cfg1.win 2).blk t).view.emb (ix2 p q) = ix2 P q :=
    Shape.idx_ext₂ (show win1_2.index t (0 : Fin 2) * 10000 + 1 * p.val = P.val by omega)
      (show win1_2.index t (1 : Fin 2) * 128 + 1 * q.val = q.val by omega)
  have h0 : ((cfg1.win 0).blk t).view.emb (ix2 p q) = ix2 P q :=
    Shape.idx_ext₂ (show win1_0.index t (0 : Fin 2) * 10000 + 1 * p.val = P.val by omega)
      (show win1_0.index t (1 : Fin 2) * 128 + 1 * q.val = q.val by omega)
  have h1 : ((cfg1.win 1).blk t).view.emb (ix2 p (0 : Fin 1)) = ix2 P (0 : Fin 1) :=
    Shape.idx_ext₂ (show win1_1.index t (0 : Fin 2) * 10000 + 1 * p.val = P.val by omega)
      (show win1_1.index t (1 : Fin 2) * 1 + 1 * 0 = 0 by omega)
  rw [h2, pay1_apply, scaleRows_apply]
  exact congrArg₂ (fun (x y : EReal) => x * y) (congrArg (V c main_v50) h0) (congrArg (V c main_v51) h1)

theorem cover1 (i : S1700000x128.Idx) :
    ∃ t : Fin cfg1.N, (cfg1.win 2).flush t = true ∧ i ∈ ((cfg1.win 2).blk t).view.set := by
  have hi0 : (i 0).val < 1700000 := (i 0).isLt
  obtain ⟨t, ht⟩ : ∃ t : Fin cfg1.N, t.val = (i 0).val / 10000 :=
    ⟨⟨(i 0).val / 10000, by rw [show cfg1.N = 170 from N_1]; omega⟩, rfl⟩
  obtain ⟨-, -, -, -, e0, e1⟩ := index_facts1 t
  refine ⟨t, flush1_2 t, ?_⟩
  show i ∈ ((View.whole main_v52).slice (win1_2.rect t)).set
  rw [View.set_slice_whole, Rect.mem_set_unit]
  exact mem_rowBlock i _ (e0.trans ht) e1

theorem final1 (c : Dev nD) :
    (dat1 (F := Ideal) V c).arrAt 2 cfg1.N = Cert.Spec.scaleRows (F := Ideal) (V c main_v50) (V c main_v51) :=
  (dat1 V c).arrAt_eq_of_cover 2 _ (fun t _ => flushed1_eq V c t) cover1

end Cert.KernelIdeal.Val

end
-- ==== Proof.KV.Fin2.lean ====
import proofs.«422336_j47991964565536_1_alg».proof.Proof.KI.Reg0
import proofs.«422336_j47991964565536_1_alg».proof.Proof.KI.Reg2
import proofs.«422336_j47991964565536_1_alg».proof.Proof.KV.Fin0
import proofs.«422336_j47991964565536_1_alg».proof.Proof.Spec
import Idealize.ShloMosaic.Lib.Pipeline.Value
import Idealize.ShloMosaic.Lib.StackMember
import Idealize.ShloMosaic.Lib.KernelVsHost
import Idealize.ShloMosaic.Lib.ValueLayout

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem pay2_apply (x0 : Vec Ideal S10000x128 .f32) (x1 : Vec Ideal S1x128 .f32) (x2 : Vec Ideal S128x128 .f32) (p : Fin 10000) (q : Fin 128) :
    k2_pay1 (F := Ideal) x0 x1 x2 (ix2 p q) = ∑ k : Fin 128, max (x0 (ix2 p k) + x1 (ix2 (0 : Fin 1) k)) 0 * x2 (ix2 k q) := by
  unfold k2_pay1
  simp only [shapeCast_self]
  refine (congrFun (matmul_zero_eq_dotGeneral _ none _ _) (ix2 p q)).trans ?_
  rw [dotK_eq]
  refine (StackMember.dotGeneral_plain_apply none _ _ p q).trans ?_
  refine Finset.sum_congr rfl fun k _ => ?_
  show max (x0 (ix2 p k) + broadcastTo S10000x128 x1 broadcasts_S1x128_S10000x128 (ix2 p k)) (Ideal.ofBits .f32 0x00000000#32) * x2 (ix2 k q) = _
  rw [Ideal.ofBits_zero_f32, broadcastTo_1b_ab_apply]

theorem biasReluRow_apply (a : Cert.Spec.TF Ideal Cert.ReferenceIdeal.S100000x128) (brow : Cert.Spec.TF Ideal Cert.ReferenceIdeal.S1x128) (p : Fin 100000) (k : Fin 128) :
    Cert.Spec.biasReluRow (F := Ideal) a brow (ix2 p k) = max (a (ix2 p k) + brow (ix2 (0 : Fin 1) k)) 0 := by
  unfold Cert.Spec.biasReluRow
  show max (a (ix2 p k) + broadcastInDim Cert.ReferenceIdeal.S100000x128 ![0, 1] Cert.ReferenceIdeal.Gen.bcast_S1x128_S100000x128_0_1 brow (ix2 p k)) (Ideal.ofBits .f32 0x00000000#32) = _
  rw [Ideal.ofBits_zero_f32, broadcastInDim_oneRow_apply]

variable (V : (c : Dev nD) → (b : Ref sig .tc) → Buf (Elt Ideal) ((c : Thread nD τ).loc b))

theorem idx_facts2 : ∀ t : Fin cfg2.N,
    win2_0.index t (0 : Fin 2) = win2_3.index t (0 : Fin 2)
  ∧ win2_0.index t (1 : Fin 2) = 0
  ∧ win2_1.index t (0 : Fin 2) = 0 ∧ win2_1.index t (1 : Fin 2) = 0
  ∧ win2_2.index t (0 : Fin 2) = 0 ∧ win2_2.index t (1 : Fin 2) = 0
  ∧ win2_3.index t (1 : Fin 2) = 0 ∧ win2_3.index t (0 : Fin 2) ≤ 9 :=
  (by decide +kernel : ∀ t : Fin grid2.N, _)

theorem idx_onto2 : ∀ q0 : Fin 10, ∃ t : Fin cfg2.N, win2_3.index t = ![q0.val, 0] :=
  (by decide +kernel : ∀ q0 : Fin 10, ∃ t : Fin grid2.N, win2_3.index t = ![q0.val, 0])

-- As in region 0, with the bias row and the clamp applied to the rows before the product.
theorem flushed2_eq (c : Dev nD) (t : Fin cfg2.N) :
    (dat2 (F := Ideal) V c).flushed 3 t = ((cfg2.win 3).blk t).view.read (Elt Ideal) (Cert.Spec.proj (F := Ideal) (Cert.Spec.biasReluRow (V c main_v55) (V c main_v56)) (V c main_arg6)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S1x128) hz]
  obtain ⟨e0, e1, e2, e3, e4, e5, e6, e7⟩ := idx_facts2 t
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (iblk2 V c 2 t) (ix2 p q) = Cert.Spec.proj (F := Ideal) (Cert.Spec.biasReluRow (V c main_v55) (V c main_v56)) (V c main_arg6) (((cfg2.win 3).blk t).view.emb (ix2 p q))
  have h3 : ((cfg2.win 3).blk t).view.emb (ix2 p q) = ix2 (rowAt _ e7 p) q :=
    Shape.idx_ext₂ (show win2_3.index t (0 : Fin 2) * 10000 + 1 * p.val = win2_3.index t (0 : Fin 2) * 10000 + p.val by omega)
      (show win2_3.index t (1 : Fin 2) * 128 + 1 * q.val = q.val by omega)
  rw [h3, pay2_apply, proj_apply]
  refine Finset.sum_congr rfl fun k _ => ?_
  rw [biasReluRow_apply]
  have h0 : ((cfg2.win 0).blk t).view.emb (ix2 p k) = ix2 (rowAt _ e7 p) k :=
    Shape.idx_ext₂ (show win2_0.index t (0 : Fin 2) * 10000 + 1 * p.val = win2_3.index t (0 : Fin 2) * 10000 + p.val by omega)
      (show win2_0.index t (1 : Fin 2) * 128 + 1 * k.val = k.val by omega)
  have h1 : ((cfg2.win 1).blk t).view.emb (ix2 (0 : Fin 1) k) = ix2 (0 : Fin 1) k :=
    Shape.idx_ext₂ (show win2_1.index t (0 : Fin 2) * 1 + 1 * 0 = 0 by omega)
      (show win2_1.index t (1 : Fin 2) * 128 + 1 * k.val = k.val by omega)
  have h2 : ((cfg2.win 2).blk t).view.emb (ix2 k q) = ix2 k q :=
    Shape.idx_ext₂ (show win2_2.index t (0 : Fin 2) * 128 + 1 * k.val = k.val by omega)
      (show win2_2.index t (1 : Fin 2) * 128 + 1 * q.val = q.val by omega)
  exact congrArg₂ (fun (x y : EReal) => x * y)
    (congrArg₂ (fun (x y : EReal) => max (x + y) 0) (congrArg (V c main_v55) h0) (congrArg (V c main_v56) h1))
    (congrArg (V c main_arg6) h2)

theorem covered2 (i : S100000x128.Idx) : ∃ t : Fin cfg2.N, (cfg2.win 3).flush t = true ∧ i ∈ ((cfg2.win 3).blk t).view.set := by
  have hi0 : (i 0).val < 100000 := (i 0).isLt
  obtain ⟨t, ht⟩ := idx_onto2 ⟨(i 0).val / 10000, by omega⟩
  refine ⟨t, flush2_3 t, ?_⟩
  show i ∈ ((View.whole main_v57).slice (win2_3.rect t)).set
  rw [View.set_slice_whole, Rect.mem_set_unit]
  exact mem_rowBlock i _ (congrFun ht 0) (congrFun ht 1)

theorem final2 (c : Dev nD) : (dat2 (F := Ideal) V c).arrAt 3 cfg2.N = Cert.Spec.proj (F := Ideal) (Cert.Spec.biasReluRow (V c main_v55) (V c main_v56)) (V c main_arg6) :=
  (dat2 V c).arrAt_eq_of_cover 3 _ (fun t _ => flushed2_eq V c t) covered2

end Cert.KernelIdeal.Val

end
-- ==== Proof.KV.Fin3.lean ====
import proofs.«422336_j47991964565536_1_alg».proof.Proof.KI.Reg3
import proofs.«422336_j47991964565536_1_alg».proof.Proof.KV.Fin1
import proofs.«422336_j47991964565536_1_alg».proof.Proof.Spec
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand Idealize.ShloMosaic.ValueIdx

variable (V : (c : Dev nD) → (b : Ref sig .tc) → Buf (Elt Ideal) ((c : Thread nD τ).loc b))

theorem index_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

-- All three blocks of point t are the rows 10000 t … 10000 t + 9999 of their arrays.
theorem flushed3_eq (c : Dev nD) (t : Fin cfg3.N) :
    (dat3 (F := Ideal) V c).flushed 2 t
      = ((cfg3.win 2).blk t).view.read (Elt Ideal) (Cert.Spec.scaleRows (F := Ideal) (V c main_v64) (V c main_v65)) := by
  show (cfg3.win 2).cut (grid3.coords t) ((dat3 V c).after 2 t) = _
  rw [after3_2]
  unfold out3_2
  rw [View.canon_unit_zero hz]
  simp only [View.ld_unit_zero (S := S10000x128) hz, View.ld_unit_zero (S := S10000x1) hz]
  obtain ⟨e0, e1, e2, e3, e4, e5⟩ := index_facts3 t
  have ht : t.val < 170 := lt_of_lt_of_eq t.isLt N_3
  funext j
  obtain ⟨p, q, rfl⟩ : ∃ (p : Fin 10000) (q : Fin 128), j = ix2 p q := ⟨j 0, j 1, eq_ix2 j⟩
  have hp := p.isLt
  obtain ⟨P, hP⟩ : ∃ P : Fin 1700000, P.val = t.val * 10000 + p.val := ⟨⟨_, by omega⟩, rfl⟩
  show k1_pay1 (iblk3 V c 0 t) (iblk3 V c 1 t) (ix2 p q)
    = Cert.Spec.scaleRows (F := Ideal) (V c main_v64) (V c main_v65) (((cfg3.win 2).blk t).view.emb (ix2 p q))
  have h2 : ((cfg3.win 2).blk t).view.emb (ix2 p q) = ix2 P q :=
    Shape.idx_ext₂ (show win3_2.index t (0 : Fin 2) * 10000 + 1 * p.val = P.val by omega)
      (show win3_2.index t (1 : Fin 2) * 128 + 1 * q.val = q.val by omega)
  have h0 : ((cfg3.win 0).blk t).view.emb (ix2 p q) = ix2 P q :=
    Shape.idx_ext₂ (show win3_0.index t (0 : Fin 2) * 10000 + 1 * p.val = P.val by omega)
      (show win3_0.index t (1 : Fin 2) * 128 + 1 * q.val = q.val by omega)
  have h1 : ((cfg3.win 1).blk t).view.emb (ix2 p (0 : Fin 1)) = ix2 P (0 : Fin 1) :=
    Shape.idx_ext₂ (show win3_1.index t (0 : Fin 2) * 10000 + 1 * p.val = P.val by omega)
      (show win3_1.index t (1 : Fin 2) * 1 + 1 * 0 = 0 by omega)
  rw [h2, pay1_apply, scaleRows_apply]
  exact congrArg₂ (fun (x y : EReal) => x * y) (congrArg (V c main_v64) h0) (congrArg (V c main_v65) h1)

theorem cover3 (i : S1700000x128.Idx) :
    ∃ t : Fin cfg3.N, (cfg3.win 2).flush t = true ∧ i ∈ ((cfg3.win 2).blk t).view.set := by
  have hi0 : (i 0).val < 1700000 := (i 0).isLt
  obtain ⟨t, ht⟩ : ∃ t : Fin cfg3.N, t.val = (i 0).val / 10000 :=
    ⟨⟨(i 0).val / 10000, by rw [show cfg3.N = 170 from N_3]; omega⟩, rfl⟩
  obtain ⟨-, -, -, -, e0, e1⟩ := index_facts3 t
  refine ⟨t, flush3_2 t, ?_⟩
  show i ∈ ((View.whole main_v66).slice (win3_2.rect t)).set
  rw [View.set_slice_whole, Rect.mem_set_unit]
  exact mem_rowBlock i _ (e0.trans ht) e1

theorem final3 (c : Dev nD) :
    (dat3 (F := Ideal) V c).arrAt 2 cfg3.N = Cert.Spec.scaleRows (F := Ideal) (V c main_v64) (V c main_v65) :=
  (dat3 V c).arrAt_eq_of_cover 2 _ (fun t _ => flushed3_eq V c t) cover3

end Cert.KernelIdeal.Val

end
-- ==== Proof.KI.Reg4Val.lean ====
import proofs.«422336_j47991964565536_1_alg».proof.Proof.KI.Reg4
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem origin4_eq_zero : (![0, 0] : Fin 2 → Nat) = fun _ => 0 := funext fun a => by fin_cases a <;> rfl

section
variable (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S512x128 .f32) (harg4 : arg4.IsWhole) (arg5 : Memref sig .tc .vmem S128x20 .f32) (harg5 : arg5.IsWhole) (arg6 : Memref sig .tc .vmem S1x20 .f32) (harg6 : arg6.IsWhole) (arg7 : Memref sig .tc .vmem S512x20 .f32) (harg7 : arg7.IsWhole) (arg8 : Memref sig .tc .vmem S512x128 .f32) (harg8 : arg8.IsWhole)

section
variable (hc0 : ¬cond4_0 i) (hc1 : ¬cond4_1 i) (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32)

theorem sout4_B_0_val :
    sout4_B_0 c i arg1 harg1 arg2 harg2 arg3 harg3 arg4 harg4 arg5 harg5 arg6 harg6 arg7 harg7 arg8 harg8 hc0 hc1 x0 x1 x2 x3 x4 x5 xs0 = k4_pay2 x0 x1 x2 xs0 := by
  unfold sout4_B_0
  rw [View.read_writes_eq_canon _ _ _ (scover4_B_0 c i arg1 harg1 arg2 harg2 arg3 harg3 arg4 harg4 arg5 harg5 arg6 harg6 arg7 harg7 arg8 harg8 hc0 hc1 x0 x1 x2 x3 x4 x5 xs0)]
  unfold kernelRun4_B
  dsimp only
  sl_unfold_run_names
  rw [View.canon_unit_zero origin4_eq_zero]
  simp only [View.readAt_eq_ld, Memref.IsWhole.read_unread, View.ld_unit_zero (S := S5000x128) origin4_eq_zero, View.ld_unit_zero (S := S1x128) origin4_eq_zero, View.ld_unit_zero (S := S5000x1) origin4_eq_zero, View.ld_unit_zero (S := S512x128) origin4_eq_zero, View.ld_unit_zero (S := S128x20) origin4_eq_zero, View.ld_unit_zero (S := S1x20) origin4_eq_zero, View.ld_unit_zero (S := S512x20) origin4_eq_zero]

end

section
variable (hc0 : ¬cond4_0 i) (hc1 : cond4_1 i) (x0 : Vec F S5000x128 .f32) (x1 : Vec F S1x128 .f32) (x2 : Vec F S5000x1 .i32) (x3 : Vec F S512x128 .f32) (x4 : Vec F S128x20 .f32) (x5 : Vec F S1x20 .f32) (xs0 : Vec F S512x128 .f32)

theorem sout4_C_0_val :
    sout4_C_0 c i arg1 harg1 arg2 harg2 arg3 harg3 arg4 harg4 arg5 harg5 arg6 harg6 arg7 harg7 arg8 harg8 hc0 hc1 x0 x1 x2 x3 x4 x5 xs0 = k4_pay2 x0 x1 x2 xs0 := by
  unfold sout4_C_0
  rw [View.read_writes_eq_canon _ _ _ (scover4_C_0 c i arg1 harg1 arg2 harg2 arg3 harg3 arg4 harg4 arg5 harg5 arg6 harg6 arg7 harg7 arg8 harg8 hc0 hc1 x0 x1 x2 x3 x4 x5 xs0)]
  unfold kernelRun4_C
  dsimp only
  sl_unfold_run_names
  rw [View.canon_unit_zero origin4_eq_zero]
  simp only [View.readAt_eq_ld, Memref.IsWhole.read_unread, View.ld_unit_zero (S := S5000x128) origin4_eq_zero, View.ld_unit_zero (S := S1x128) origin4_eq_zero, View.ld_unit_zero (S := S5000x1) origin4_eq_zero, View.ld_unit_zero (S := S512x128) origin4_eq_zero, View.ld_unit_zero (S := S128x20) origin4_eq_zero, View.ld_unit_zero (S := S1x20) origin4_eq_zero, View.ld_unit_zero (S := S512x20) origin4_eq_zero]

theorem out4_C_6_val :
    out4_C_6 c i arg1 harg1 arg2 harg2 arg3 harg3 arg4 harg4 arg5 harg5 arg6 harg6 arg7 harg7 arg8 harg8 hc0 hc1 x0 x1 x2 x3 x4 x5 xs0 = k4_pay3 (k4_pay2 x0 x1 x2 xs0) x3 x4 x5 := by
  unfold out4_C_6
  rw [View.read_writes_eq_canon _ _ _ (cover4_C_6 c i arg1 harg1 arg2 harg2 arg3 harg3 arg4 harg4 arg5 harg5 arg6 harg6 arg7 harg7 arg8 harg8 hc0 hc1 x0 x1 x2 x3 x4 x5 xs0)]
  unfold kernelRun4_C
  dsimp only
  sl_unfold_run_names
  rw [View.canon_unit_zero origin4_eq_zero]
  simp only [View.readAt_eq_ld, Memref.IsWhole.read_unread, View.ld_unit_zero (S := S5000x128) origin4_eq_zero, View.ld_unit_zero (S := S1x128) origin4_eq_zero, View.ld_unit_zero (S := S5000x1) origin4_eq_zero, View.ld_unit_zero (S := S512x128) origin4_eq_zero, View.ld_unit_zero (S := S128x20) origin4_eq_zero, View.ld_unit_zero (S := S1x20) origin4_eq_zero, View.ld_unit_zero (S := S512x20) origin4_eq_zero]
  rw [View.readCov_unit_zero (S := S512x128) _ origin4_eq_zero]

end

section
variable (hc0 : cond4_0 i) (hc1 : ¬cond4_1 i) (x0 : Vec F S5000x128 .f32) (x1 : Vec F S1x128 .f32) (x2 : Vec F S5000x1 .i32) (x3 : Vec F S512x128 .f32) (x4 : Vec F S128x20 .f32) (x5 : Vec F S1x20 .f32)

theorem sout4_A_0_val :
    sout4_A_0 c i arg1 harg1 arg2 harg2 arg3 harg3 arg4 harg4 arg5 harg5 arg6 harg6 arg7 harg7 arg8 harg8 hc0 hc1 x0 x1 x2 x3 x4 x5 = k4_pay2 x0 x1 x2 (k4_pay1 (F := F)) := by
  unfold sout4_A_0
  rw [View.read_writes_eq_canon _ _ _ (scover4_A_0 c i arg1 harg1 arg2 harg2 arg3 harg3 arg4 harg4 arg5 harg5 arg6 harg6 arg7 harg7 arg8 harg8 hc0 hc1 x0 x1 x2 x3 x4 x5)]
  unfold kernelRun4_A
  dsimp only
  sl_unfold_run_names
  rw [View.canon_cons_unit_zero (S := S512x128) origin4_eq_zero]
  simp only [View.readAt_eq_ld, Memref.IsWhole.read_unread, View.ld_unit_zero (S := S5000x128) origin4_eq_zero, View.ld_unit_zero (S := S1x128) origin4_eq_zero, View.ld_unit_zero (S := S5000x1) origin4_eq_zero, View.ld_unit_zero (S := S512x128) origin4_eq_zero, View.ld_unit_zero (S := S128x20) origin4_eq_zero, View.ld_unit_zero (S := S1x20) origin4_eq_zero, View.ld_unit_zero (S := S512x20) origin4_eq_zero]
  rw [View.readCov_unit_zero (S := S512x128) _ origin4_eq_zero]

end

end

end Cert.KernelIdeal.Hand

end
-- ==== Proof.LibRowGatherScatter.lean ====
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

-- Row e of the updates is aimed at the row its start word names, read signed, and keeps its column.
theorem rowScatter_pos_zero :
    (rowScatter N E D wf).start (ix2 e q') idx 0 + ((rowScatter N E D wf).window (ix2 e q') 0 : ℕ)
      = (idx (ix2 e 0)).toInt := by
  unfold ScatterDims.start ScatterDims.window
  rw [dif_pos (show (0 : Fin 2) ∈ (rowScatter N E D wf).scatterDimsToOperandDims from List.mem_singleton.mpr rfl),
    dif_neg (show (0 : Fin 2) ∉ (rowScatter N E D wf).sKept from
      (by decide : (0 : Fin 2) ∉ (List.finRange 2).filter (· ∉ [(0 : Fin 2)]))), Nat.cast_zero, add_zero]
  exact congrArg (fun i => (idx i).toInt) (funext fun b => Fin.ext (match b with | ⟨0, _⟩ => rfl | ⟨1, _⟩ => rfl))

theorem rowScatter_pos_one :
    (rowScatter N E D wf).start (ix2 e q') idx 1 + ((rowScatter N E D wf).window (ix2 e q') 1 : ℕ) = (q'.val : ℤ) := by
  unfold ScatterDims.start ScatterDims.window
  rw [dif_neg (show (1 : Fin 2) ∉ [(0 : Fin 2)] by decide),
    dif_pos (show (1 : Fin 2) ∈ (rowScatter N E D wf).sKept from
      (by decide : (1 : Fin 2) ∈ (List.finRange 2).filter (· ∉ [(0 : Fin 2)]))), zero_add]
  rfl

theorem rowScatter_resultIdx_iff (d : Fin N) (q : Fin D) :
    (rowScatter N E D wf).resultIdx? (ix2 e q') idx = some (ix2 d q)
      ↔ (idx (ix2 e 0)).toInt = (d.val : ℤ) ∧ q' = q := by
  have p0 := rowScatter_pos_zero wf idx e q'
  have p1 := rowScatter_pos_one wf idx e q'
  have hd := d.isLt
  have hq := q'.isLt
  have d0 : ((ix2 d q : (⟨2, ![N, D]⟩ : Shape).Idx) 0).val = d.val := rfl
  have d1 : ((ix2 d q : (⟨2, ![N, D]⟩ : Shape).Idx) 1).val = q.val := rfl
  unfold ScatterDims.resultIdx?
  split
  · next h =>
    rw [Option.some.injEq]
    constructor
    · intro hf
      have e0 := congrArg (fun f => (f 0).val) hf
      have e1 := congrArg (fun f => (f 1).val) hf
      simp only [p0, p1] at e0 e1
      have h0 := h 0
      rw [p0] at h0
      exact ⟨by omega, Fin.ext (by omega)⟩
    · rintro ⟨hd', rfl⟩
      funext a
      refine Fin.ext ?_
      match a with
      | ⟨0, _⟩ =>
        show ((rowScatter N E D wf).start (ix2 e q') idx 0 + ((rowScatter N E D wf).window (ix2 e q') 0 : ℕ)).toNat = d.val
        omega
      | ⟨1, _⟩ =>
        show ((rowScatter N E D wf).start (ix2 e q') idx 1 + ((rowScatter N E D wf).window (ix2 e q') 1 : ℕ)).toNat = q'.val
        omega
  · next h =>
    refine ⟨fun hf => absurd hf (by simp), ?_⟩
    rintro ⟨hd', rfl⟩
    refine absurd (fun a => ?_) h
    match a with
    | ⟨0, _⟩ =>
      show 0 ≤ (rowScatter N E D wf).start (ix2 e q') idx 0 + ((rowScatter N E D wf).window (ix2 e q') 0 : ℕ)
        ∧ (rowScatter N E D wf).start (ix2 e q') idx 0 + ((rowScatter N E D wf).window (ix2 e q') 0 : ℕ) < (N : ℤ)
      omega
    | ⟨1, _⟩ =>
      show 0 ≤ (rowScatter N E D wf).start (ix2 e q') idx 1 + ((rowScatter N E D wf).window (ix2 e q') 1 : ℕ)
        ∧ (rowScatter N E D wf).start (ix2 e q') idx 1 + ((rowScatter N E D wf).window (ix2 e q') 1 : ℕ) < (D : ℤ)
      omega

-- An accumulating scatter of rows adds to entry (d, q) the updates' column q over the rows aimed at d.
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Cert.ReferenceIdeal.Hand

end
-- ==== Proof.KV.PoolMath.lean ====
import proofs.«422336_j47991964565536_1_alg».proof.Proof.Gen.KernelIdeal.Skeleton
import proofs.«422336_j47991964565536_1_alg».proof.Proof.Spec
import proofs.«422336_j47991964565536_1_alg».proof.Proof.LibRowGatherScatter
import Idealize.ShloMosaic.PureOps.Ideal.Laws
import Idealize.ShloMosaic.Lib.ValueLayout
import Idealize.ShloMosaic.Lib.IdealHost
import Idealize.ShloMosaic.Lib.KernelVsHost

noncomputable section

open scoped BigOperators

namespace Cert.KernelIdeal.Val

open Cert.KernelIdeal Cert.KernelIdeal.Gen Idealize.ShloMosaic Idealize.ShloMosaic.ValueIdx

theorem ofBits_one_f32 : Ideal.ofBits .f32 0x3F800000#32 = 1 := by
  simp [Ideal.ofBits, Ideal.ieee, -EReal.coe_mul]; norm_num

theorem k4_pay1_apply (g : Fin 512) (q : Fin 128) : (k4_pay1 (F := Ideal)) (ix2 g q) = 0 := by
  unfold k4_pay1
  rw [shapeCast_self]
  exact Ideal.ofBits_zero_f32

theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

-- A product contracted over one axis, at an output index, is the sum over that axis' coordinate of the operands' entries there.
theorem sum_contr1 {sl sr so : Shape} {φ₁ φ₂ : FTy} (D : DotDims sl sr so) (n : ℕ) (hr : D.contr.rank = 1)
    (hs : D.contr.size ⟨0, by omega⟩ = n) (a : FVec Ideal sl φ₁) (b : FVec Ideal sr φ₂) (j : so.Idx)
    (L : Fin n → sl.Idx) (R : Fin n → sr.Idx)
    (hl : ∀ k, D.lhsIdx j ((contrEquiv1 D n hr hs).symm k) = L k)
    (hR : ∀ k, D.rhsIdx j ((contrEquiv1 D n hr hs).symm k) = R k) :
    ∑ k : D.contr.Idx, a (D.lhsIdx j k) * b (D.rhsIdx j k) = ∑ k : Fin n, a (L k) * b (R k) := by
  rw [← Equiv.sum_comp (contrEquiv1 D n hr hs).symm]
  exact Finset.sum_congr rfl fun k _ => by rw [hl, hR]

theorem poolDot_apply {φ₁ φ₂ : FTy} (a : FVec Ideal S5000x512 φ₁) (b : FVec Ideal S5000x128 φ₂) (g : Fin 512) (q : Fin 128) :
    matmul dot_S5000x512_S5000x128_S512x128_0_0_1_1_n_n none a b (constant S512x128 .f32 0x00000000#32) (ix2 g q)
      = ∑ r : Fin 5000, a (ix2 r g) * b (ix2 r q) := by
  simp only [matmul]
  rw [Ideal.matmul_constant_zero_apply]
  exact sum_contr1 _ 5000 rfl rfl a b _ (fun r => ix2 r g) (fun r => ix2 r q)
    (fun _ => funext fun ax => match ax with | ⟨0, _⟩ => rfl | ⟨1, _⟩ => rfl)
    (fun _ => funext fun ax => match ax with | ⟨0, _⟩ => rfl | ⟨1, _⟩ => rfl)

theorem clsDot_apply {φ₁ φ₂ : FTy} (a : FVec Ideal S512x128 φ₁) (b : FVec Ideal S128x20 φ₂) (g : Fin 512) (q : Fin 20) :
    Host.dotGeneral (F := Ideal) dot_S512x128_S128x20_S512x20_1_0_0_1_n_n none a b (ix2 g q)
      = ∑ k : Fin 128, a (ix2 g k) * b (ix2 k q) := by
  simp only [Host.dotGeneral]
  rw [Ideal.dotGeneral_apply]
  exact sum_contr1 _ 128 rfl rfl a b _ (fun k => ix2 g k) (fun k => ix2 k q)
    (fun _ => funext fun ax => match ax with | ⟨0, _⟩ => rfl | ⟨1, _⟩ => rfl)
    (fun _ => funext fun ax => match ax with | ⟨0, _⟩ => rfl | ⟨1, _⟩ => rfl)

theorem toInt_ofNat_small (g : Fin 512) : (BitVec.ofNat 32 g.val).toInt = (g.val : ℤ) := by
  have hg := g.isLt
  rw [BitVec.toInt_eq_toNat_cond, BitVec.toNat_ofNat]
  have : g.val % 2 ^ 32 = g.val := Nat.mod_eq_of_lt (by omega)
  rw [this]
  split <;> omega

-- The compare of a word with the number g, widened and converted: 1 where the word read signed is g, else 0.
theorem indicator_eq (w : BitVec 32) (g : Fin 512) :
    FloatOps.sitofp (F := Ideal) .f32 ((IntOp.cmpi .eq w (BitVec.ofNat 32 g.val)).setWidth 32)
      = if w.toInt = (g.val : ℤ) then (1 : EReal) else 0 := by
  have hg := toInt_ofNat_small g
  by_cases h : w = BitVec.ofNat 32 g.val
  · rw [IntOp.cmpi_eq.mpr h, if_pos (by rw [h]; exact hg)]
    show (((((1#1 : BitVec 1).setWidth 32).toInt : ℤ) : ℝ) : EReal) = 1
    rw [show ((1#1 : BitVec 1).setWidth 32).toInt = 1 by decide]; simp
  · rw [eq_zero_of_ne_one fun hc => h (IntOp.cmpi_eq.mp hc), if_neg fun he => h (BitVec.eq_of_toInt_eq (he.trans hg.symm))]
    show (((((0#1 : BitVec 1).setWidth 32).toInt : ℤ) : ℝ) : EReal) = 0
    rw [show ((0#1 : BitVec 1).setWidth 32).toInt = 0 by decide]; simp

theorem k4_pay2_apply (x : FVec Ideal S5000x128 .f32) (b : FVec Ideal S1x128 .f32) (ids : IVec S5000x1 32)
    (acc : FVec Ideal S512x128 .f32) (g : Fin 512) (q : Fin 128) :
    k4_pay2 (F := Ideal) x b ids acc (ix2 g q)
      = acc (ix2 g q) + ∑ r : Fin 5000, (if (ids (ix2 r 0)).toInt = (g.val : ℤ) then (1 : EReal) else 0)
          * max (x (ix2 r q) + b (ix2 0 q)) 0 := by
  unfold k4_pay2
  rw [shapeCast_self]
  rw [addf_apply, poolDot_apply]
  refine congrArg (acc (ix2 g q) + ·) (Finset.sum_congr rfl fun r _ => ?_)
  simp only [shapeCast_self]
  rw [truncf_apply, truncf_apply, sitofp_apply, extui_apply]
  rw [show ∀ (a b : IVec S5000x512 32) (i : S5000x512.Idx), cmpi .eq a b i = IntOp.cmpi .eq (a i) (b i) from fun _ _ _ => rfl]
  rw [broadcastTo_col_apply, iota_single_apply]
  rw [maximumf_apply, addf_apply, broadcast_apply, broadcastTo_1b_ab_apply]
  show FloatOps.sitofp (F := Ideal) .f32 ((IntOp.cmpi .eq (ids (ix2 r 0)) (BitVec.ofNat 32 g.val)).setWidth 32)
    * max (x (ix2 r q) + b (ix2 0 q)) (Ideal.ofBits .f32 0x00000000#32) = _
  rw [indicator_eq, Ideal.ofBits_zero_f32]

theorem k4_pay3_apply (acc cnt : FVec Ideal S512x128 .f32) (wc : FVec Ideal S128x20 .f32) (bcr : FVec Ideal S1x20 .f32)
    (g : Fin 512) (q : Fin 20) :
    k4_pay3 (F := Ideal) acc cnt wc bcr (ix2 g q)
      = (∑ k : Fin 128, Ideal.div (acc (ix2 g k)) (max (cnt (ix2 g k)) 1) * wc (ix2 k q)) + bcr (ix2 0 q) := by
  unfold k4_pay3
  simp only [shapeCast_self]
  rw [addf_apply, matmul_zero_eq_dotGeneral, clsDot_apply, broadcastTo_1b_ab_apply]
  refine congrArg (· + bcr (ix2 0 q)) (Finset.sum_congr rfl fun k _ => ?_)
  rw [truncf_apply, truncf_apply, divf_apply, maximumf_apply, broadcast_apply]
  show Ideal.div (acc (ix2 g k)) (max (cnt (ix2 g k)) (Ideal.ofBits .f32 0x3F800000#32)) * wc (ix2 k q) = _
  rw [ofBits_one_f32]

def blockRow (t : Fin 20) (r : Fin 5000) : Fin 100000 :=
  ⟨5000 * t.val + r.val, by have := t.isLt; have := r.isLt; omega⟩

theorem sum_blockRow (f : Fin 100000 → EReal) :
    ∑ r : Fin 100000, f r = ∑ t : Fin 20, ∑ r : Fin 5000, f (blockRow t r) := by
  rw [← Equiv.sum_comp (finProdFinEquiv : Fin 20 × Fin 5000 ≃ Fin 100000) f, Fintype.sum_prod_type]
  refine Finset.sum_congr rfl fun t _ => Finset.sum_congr rfl fun r _ => congrArg f (Fin.ext ?_)
  show r.val + 5000 * t.val = 5000 * t.val + r.val
  omega

section Fold
variable (h : FVec Ideal S100000x128 .f32) (brow : FVec Ideal S1x128 .f32) (idcol : IVec S100000x1 32)

def poolTerm (g : Fin 512) (q : Fin 128) (r : Fin 100000) : EReal :=
  (if (idcol (ix2 r 0)).toInt = (g.val : ℤ) then (1 : EReal) else 0) * max (h (ix2 r q) + brow (ix2 0 q)) 0

def poolPartial (n : ℕ) (g : Fin 512) (q : Fin 128) : EReal :=
  ∑ t ∈ (Finset.univ : Finset (Fin 20)).filter (fun t => t.val < n), ∑ r : Fin 5000, poolTerm h brow idcol g q (blockRow t r)

theorem poolPartial_zero (g : Fin 512) (q : Fin 128) : poolPartial h brow idcol 0 g q = 0 := by
  unfold poolPartial
  rw [Finset.filter_false_of_mem (fun t _ => Nat.not_lt_zero _), Finset.sum_empty]

theorem poolPartial_succ (n : ℕ) (hn : n < 20) (g : Fin 512) (q : Fin 128) :
    poolPartial h brow idcol (n + 1) g q
      = poolPartial h brow idcol n g q + ∑ r : Fin 5000, poolTerm h brow idcol g q (blockRow ⟨n, hn⟩ r) := by
  unfold poolPartial
  have hset : (Finset.univ : Finset (Fin 20)).filter (fun t => t.val < n + 1)
      = insert ⟨n, hn⟩ ((Finset.univ : Finset (Fin 20)).filter (fun t => t.val < n)) := by
    ext t
    simp only [Finset.mem_filter, Finset.mem_univ, true_and, Finset.mem_insert, Fin.ext_iff]
    omega
  rw [hset, Finset.sum_insert, add_comm]
  simp only [Finset.mem_filter, Finset.mem_univ, true_and]
  exact Nat.lt_irrefl n

theorem poolPartial_all (g : Fin 512) (q : Fin 128) :
    poolPartial h brow idcol 20 g q = ∑ r : Fin 100000, poolTerm h brow idcol g q r := by
  unfold poolPartial
  rw [Finset.filter_true_of_mem (fun t _ => t.isLt), sum_blockRow]

theorem k4_pay2_step (n : ℕ) (hn : n < 20) (x : FVec Ideal S5000x128 .f32) (ids : IVec S5000x1 32)
    (acc : FVec Ideal S512x128 .f32)
    (hx : ∀ (r : Fin 5000) (q : Fin 128), x (ix2 r q) = h (ix2 (blockRow ⟨n, hn⟩ r) q))
    (hids : ∀ r : Fin 5000, ids (ix2 r 0) = idcol (ix2 (blockRow ⟨n, hn⟩ r) 0))
    (hacc : ∀ (g : Fin 512) (q : Fin 128), acc (ix2 g q) = poolPartial h brow idcol n g q)
    (g : Fin 512) (q : Fin 128) :
    k4_pay2 (F := Ideal) x brow ids acc (ix2 g q) = poolPartial h brow idcol (n + 1) g q := by
  rw [k4_pay2_apply, poolPartial_succ h brow idcol n hn, hacc]
  refine congrArg (poolPartial h brow idcol n g q + ·) (Finset.sum_congr rfl fun r _ => ?_)
  unfold poolTerm
  rw [hx, hids]

-- The accumulating scatter of the clamped features at the graph ids, from zero: the sum of the rows of graph g.
theorem poolScatter_apply (g : Fin 512) (q : Fin 128) :
    Host.scatterAdd (F := Ideal) Cert.ReferenceIdeal.scatter_S512x128_S100000x1_S100000x128_1_0_0_1
        (broadcastInDim Cert.ReferenceIdeal.S512x128 ![] Cert.ReferenceIdeal.Gen.bcast_S_S512x128
          (constant (F := Ideal) Cert.ReferenceIdeal.S_ .f32 0x00000000#32))
        idcol (Cert.Spec.biasReluRow (F := Ideal) h brow) (ix2 g q)
      = ∑ r : Fin 100000, poolTerm h brow idcol g q r := by
  show Host.scatterAdd (F := Ideal) (Cert.ReferenceIdeal.Hand.rowScatter 512 100000 128
      Cert.ReferenceIdeal.Gen.scatter_S512x128_S100000x1_S100000x128_1_0_0_1_wf) _ idcol _ (ix2 g q) = _
  rw [Cert.ReferenceIdeal.Hand.rowScatterAdd_apply, broadcastInDim_scalar_apply, constant_apply,
    Ideal.ofBits_zero_f32, zero_add, Finset.sum_filter]
  refine Finset.sum_congr rfl fun r _ => ?_
  unfold poolTerm Cert.Spec.biasReluRow
  rw [maximumf_apply, broadcastInDim_scalar_apply, constant_apply, Ideal.ofBits_zero_f32, addf_apply,
    broadcastInDim_oneRow_apply]
  split
  · rw [one_mul]
  · rw [zero_mul]

end Fold

theorem hostDivf_apply {s : Shape} {φ : FTy} (a b : FVec Ideal s φ) (i : s.Idx) :
    Host.divf a b i = Ideal.div (a i) (b i) := rfl

-- At the sums over all twenty blocks the third value is the specification's mean pooling and classifier.
theorem poolCore_eq_k4_pay3 (h : FVec Ideal S100000x128 .f32) (brow : FVec Ideal S1x128 .f32) (idcol : IVec S100000x1 32)
    (cnt : FVec Ideal S512x128 .f32) (wc : FVec Ideal S128x20 .f32) (bcrow : FVec Ideal S1x20 .f32)
    (acc : FVec Ideal S512x128 .f32)
    (hacc : ∀ (g : Fin 512) (q : Fin 128), acc (ix2 g q) = poolPartial h brow idcol 20 g q) :
    Cert.Spec.poolCore (F := Ideal) (Cert.Spec.biasReluRow (F := Ideal) h brow) idcol
        (maximumf cnt (broadcastInDim Cert.ReferenceIdeal.S512x128 ![] Cert.ReferenceIdeal.Gen.bcast_S_S512x128
          (constant (F := Ideal) Cert.ReferenceIdeal.S_ .f32 0x3F800000#32))) wc bcrow
      = k4_pay3 (F := Ideal) acc cnt wc bcrow := by
  funext j
  obtain ⟨g, q, rfl⟩ : ∃ (g : Fin 512) (q : Fin 20), j = ix2 g q := ⟨j 0, j 1, eq_ix2 j⟩
  rw [k4_pay3_apply]
  unfold Cert.Spec.poolCore
  rw [addf_apply, broadcastInDim_oneRow_apply]
  refine congrArg (· + bcrow (ix2 0 q)) ?_
  refine (clsDot_apply _ wc g q).trans (Finset.sum_congr rfl fun k _ => ?_)
  rw [hostDivf_apply, poolScatter_apply, maximumf_apply, broadcastInDim_scalar_apply, constant_apply,
    ofBits_one_f32, hacc, poolPartial_all]

end Cert.KernelIdeal.Val

end
-- ==== Proof.KV.Fin4.lean ====
import proofs.«422336_j47991964565536_1_alg».proof.Proof.KI.Reg4Val
import proofs.«422336_j47991964565536_1_alg».proof.Proof.KV.PoolMath

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

section Blocks
variable {F : FTy → Type} [FloatOps F]
variable (V : (c : Dev nD) → (b : Ref sig .tc) → Buf (Elt F) ((c : Thread nD τ).loc b))

abbrev harr (c : Dev nD) : Vec F S100000x128 .f32 := V c main_v69
abbrev browarr (c : Dev nD) : Vec F S1x128 .f32 := V c main_v70
abbrev idarr (c : Dev nD) : Vec F S100000x1 .i32 := V c main_v71
abbrev cntarr (c : Dev nD) : Vec F S512x128 .f32 := V c main_v35
abbrev wcarr (c : Dev nD) : Vec F S128x20 .f32 := V c main_arg8
abbrev bcarr (c : Dev nD) : Vec F S1x20 .f32 := V c main_v72

abbrev xblk (c : Dev nD) (t : Fin cfg4.N) : Vec F S5000x128 .f32 := iblk4 V c 0 t
abbrev browblk (c : Dev nD) (t : Fin cfg4.N) : Vec F S1x128 .f32 := iblk4 V c 1 t
abbrev idblk (c : Dev nD) (t : Fin cfg4.N) : Vec F S5000x1 .i32 := iblk4 V c 2 t
abbrev cntblk (c : Dev nD) (t : Fin cfg4.N) : Vec F S512x128 .f32 := iblk4 V c 3 t
abbrev wcblk (c : Dev nD) (t : Fin cfg4.N) : Vec F S128x20 .f32 := iblk4 V c 4 t
abbrev bcblk (c : Dev nD) (t : Fin cfg4.N) : Vec F S1x20 .f32 := iblk4 V c 5 t

theorem idx4_facts : ∀ t : Fin cfg4.N,
    win4_0.index t 0 = t.val ∧ win4_0.index t 1 = 0 ∧ win4_2.index t 0 = t.val ∧ win4_2.index t 1 = 0
    ∧ (win4_1.index t = fun _ => 0) ∧ (win4_3.index t = fun _ => 0) ∧ (win4_4.index t = fun _ => 0)
    ∧ (win4_5.index t = fun _ => 0) ∧ (win4_6.index t = fun _ => 0) :=
  (by decide +kernel : ∀ t : Fin grid4.N, _)

theorem read_blk_zero (b : Ref sig .tc) {idx : Fin b.ty.shape.rank → Nat} (h : idx = fun _ => 0)
    (inb : ∀ a, idx a * b.ty.shape.size a + b.ty.shape.size a ≤ b.ty.shape.size a) (f : b.ty.Contents (Elt F)) :
    ((Memref.whole b).access (Rect.unit (fun a => idx a * b.ty.shape.size a) b.ty.shape.size inb) : View sig .tc _ _ _).read (Elt F) f = f :=
  Memref.read_access_unit_zero (Elt F) b (funext fun a => by rw [h]; exact Nat.zero_mul _) inb f

theorem xblk_apply (c : Dev nD) (t : Fin cfg4.N) (r : Fin 5000) (q : Fin 128) :
    xblk V c t (ix2 r q) = harr V c (ix2 (blockRow ⟨t.val, lt_of_lt_of_eq t.isLt (show cfg4.N = 20 from N_4)⟩ r) q) := by
  obtain ⟨e0, e1, -⟩ := idx4_facts t
  show iblk4 V c 0 t (ix2 r q) = _
  unfold iblk4
  rw [View.read_apply]
  show V c main_v69 _ = V c main_v69 _
  exact congrArg _ (Shape.idx_ext₂ (show win4_0.index t 0 * 5000 + 1 * r.val = 5000 * t.val + r.val by omega)
    (show win4_0.index t 1 * 128 + 1 * q.val = q.val by omega))

theorem idblk_apply (c : Dev nD) (t : Fin cfg4.N) (r : Fin 5000) :
    idblk V c t (ix2 r 0) = idarr V c (ix2 (blockRow ⟨t.val, lt_of_lt_of_eq t.isLt (show cfg4.N = 20 from N_4)⟩ r) 0) := by
  obtain ⟨-, -, e0, e1, -⟩ := idx4_facts t
  show iblk4 V c 2 t (ix2 r 0) = _
  unfold iblk4
  rw [View.read_apply]
  show V c main_v71 _ = V c main_v71 _
  exact congrArg _ (Shape.idx_ext₂ (show win4_2.index t 0 * 5000 + 1 * r.val = 5000 * t.val + r.val by omega)
    (show win4_2.index t 1 * 1 + 1 * 0 = 0 by omega))

theorem browblk_eq (c : Dev nD) (t : Fin cfg4.N) : browblk V c t = browarr V c :=
  read_blk_zero main_v70 (idx4_facts t).2.2.2.2.1 _ (V c main_v70)
theorem cntblk_eq (c : Dev nD) (t : Fin cfg4.N) : cntblk V c t = cntarr V c :=
  read_blk_zero main_v35 (idx4_facts t).2.2.2.2.2.1 _ (V c main_v35)
theorem wcblk_eq (c : Dev nD) (t : Fin cfg4.N) : wcblk V c t = wcarr V c :=
  read_blk_zero main_arg8 (idx4_facts t).2.2.2.2.2.2.1 _ (V c main_arg8)
theorem bcblk_eq (c : Dev nD) (t : Fin cfg4.N) : bcblk V c t = bcarr V c :=
  read_blk_zero main_v72 (idx4_facts t).2.2.2.2.2.2.2.1 _ (V c main_v72)

end Blocks

variable (V : (c : Dev nD) → (b : Ref sig .tc) → Buf (Elt Ideal) ((c : Thread nD τ).loc b))

theorem acc_step (c : Dev nD) (n : ℕ) (hn : n < cfg4.N) (acc : Vec Ideal S512x128 .f32)
    (hacc : ∀ (g : Fin 512) (q : Fin 128), acc (ix2 g q) = poolPartial (harr V c) (browarr V c) (idarr V c) n g q)
    (g : Fin 512) (q : Fin 128) :
    k4_pay2 (F := Ideal) (xblk V c ⟨n, hn⟩) (browblk V c ⟨n, hn⟩) (idblk V c ⟨n, hn⟩) acc (ix2 g q)
      = poolPartial (harr V c) (browarr V c) (idarr V c) (n + 1) g q :=
  (congrArg (fun b => k4_pay2 (F := Ideal) (xblk V c ⟨n, hn⟩) b (idblk V c ⟨n, hn⟩) acc (ix2 g q)) (browblk_eq V c ⟨n, hn⟩)).trans
    (k4_pay2_step (harr V c) (browarr V c) (idarr V c) n (lt_of_lt_of_eq hn (show cfg4.N = 20 from N_4))
      (xblk V c ⟨n, hn⟩) (idblk V c ⟨n, hn⟩) acc (fun r q => xblk_apply V c ⟨n, hn⟩ r q) (fun r => idblk_apply V c ⟨n, hn⟩ r) hacc g q)

-- By induction on the point: the first point starts from zero, every later point from what the point before left.
theorem acc_eq (c : Dev nD) : ∀ (n : ℕ) (hn : n < cfg4.N) (g : Fin 512) (q : Fin 128),
    (outsAt4 V c n hn).2 (ix2 g q) = poolPartial (harr V c) (browarr V c) (idarr V c) (n + 1) g q
  | 0, hn, g, q => by
    rw [outsAt4_A V c ⟨0, hn⟩ rfl (by dsimp only; omega)]
    dsimp only
    rw [sout4_A_0_val]
    exact acc_step V c 0 hn (k4_pay1 (F := Ideal))
      (fun g q => (k4_pay1_apply g q).trans (poolPartial_zero (harr V c) (browarr V c) (idarr V c) g q).symm) g q
  | n + 1, hn, g, q => by
    have hN : n + 1 < 20 := lt_of_lt_of_eq hn (show cfg4.N = 20 from N_4)
    have h0 : ¬(⟨n + 1, hn⟩ : Fin cfg4.N).val % 20 = 0 := by dsimp only; omega
    have key := acc_step V c (n + 1) hn (outsAt4 V c n (Nat.lt_of_succ_lt hn)).2 (acc_eq c n (Nat.lt_of_succ_lt hn)) g q
    by_cases h19 : (⟨n + 1, hn⟩ : Fin cfg4.N).val % 20 = 19
    · rw [outsAt4_C V c ⟨n + 1, hn⟩ h0 h19]
      dsimp only
      rw [sout4_C_0_val]
      exact key
    · rw [outsAt4_B V c ⟨n + 1, hn⟩ h0 h19]
      dsimp only
      rw [sout4_B_0_val]
      exact key

abbrev pooled (c : Dev nD) : Vec Ideal S512x20 .f32 :=
  Cert.Spec.poolCore (F := Ideal) (Cert.Spec.biasReluRow (F := Ideal) (harr V c) (browarr V c)) (idarr V c)
    (maximumf (cntarr V c) (broadcastInDim Cert.ReferenceIdeal.S512x128 ![] Cert.ReferenceIdeal.Gen.bcast_S_S512x128
      (constant (F := Ideal) Cert.ReferenceIdeal.S_ .f32 0x3F800000#32))) (wcarr V c) (bcarr V c)

theorem lt19 : 19 < cfg4.N := by rw [show cfg4.N = 20 from N_4]; decide

theorem out_last (c : Dev nD) : (outsAt4 V c 19 lt19).1 = pooled V c := by
  rw [outsAt4_C V c ⟨19, lt19⟩ (by dsimp only; omega) rfl]
  dsimp only
  rw [out4_C_6_val]
  show k4_pay3 (F := Ideal) _ (cntblk V c ⟨19, lt19⟩) (wcblk V c ⟨19, lt19⟩) (bcblk V c ⟨19, lt19⟩) = _
  rw [cntblk_eq, wcblk_eq, bcblk_eq]
  exact (poolCore_eq_k4_pay3 (harr V c) (browarr V c) (idarr V c) (cntarr V c) (wcarr V c) (bcarr V c) _
    (fun g q => acc_step V c 19 lt19 (outsAt4 V c 18 (Nat.lt_of_succ_lt lt19)).2 (acc_eq V c 18 (Nat.lt_of_succ_lt lt19)) g q)).symm

theorem flushed4_eq (c : Dev nD) (t : Fin cfg4.N) (hf : (cfg4.win 6).flush t = true) :
    (dat4 V c).flushed 6 t = ((cfg4.win 6).blk t).view.read (Elt Ideal) (pooled V c) := by
  have hN : cfg4.N = 20 := N_4
  have h19 : t.val = 19 := by have := (flush4_6 t).mp hf; have := t.isLt; omega
  obtain rfl : t = ⟨19, lt19⟩ := Fin.ext h19
  show (cfg4.win 6).cut (grid4.coords ⟨19, lt19⟩) ((dat4 V c).after 6 ⟨19, lt19⟩) = _
  rw [after4_6]
  show (cfg4.win 6).cut (grid4.coords ⟨19, lt19⟩) (outsAt4 V c 19 lt19).1 = _
  rw [out_last]
  exact (read_blk_zero main_v73 (idx4_facts ⟨19, lt19⟩).2.2.2.2.2.2.2.2 _ (pooled V c)).symm

theorem final4 (c : Dev nD) : (dat4 (F := Ideal) V c).arrAt 6 cfg4.N
    = Cert.Spec.poolCore (F := Ideal) (Cert.Spec.biasReluRow (F := Ideal) (V c main_v69) (V c main_v70)) (V c main_v71)
        (maximumf (V c main_v35) (broadcastInDim Cert.ReferenceIdeal.S512x128 ![] Cert.ReferenceIdeal.Gen.bcast_S_S512x128
          (constant (F := Ideal) Cert.ReferenceIdeal.S_ .f32 0x3F800000#32))) (V c main_arg8) (V c main_v72) :=
  (dat4 V c).arrAt_eq_of_cover 6 (pooled V c) (flushed4_eq V c) fun i =>
    ⟨⟨19, lt19⟩, (flush4_6 ⟨19, lt19⟩).mpr rfl, by
      show i ∈ ((View.whole main_v73).slice (win4_6.rect ⟨19, lt19⟩)).set
      rw [View.set_slice_whole]
      exact View.mem_set_unit_zero (S := S512x20) (funext fun a => by rw [(idx4_facts ⟨19, lt19⟩).2.2.2.2.2.2.2.2]; exact Nat.zero_mul _) _ i⟩

end Cert.KernelIdeal.Val

end
-- ==== Proof.KV.Chain.lean ====
import proofs.«422336_j47991964565536_1_alg».proof.Proof.KV.Keep
import proofs.«422336_j47991964565536_1_alg».proof.Proof.KV.Host
import proofs.«422336_j47991964565536_1_alg».proof.Proof.KV.Fin0
import proofs.«422336_j47991964565536_1_alg».proof.Proof.KV.Fin1
import proofs.«422336_j47991964565536_1_alg».proof.Proof.KV.Fin2
import proofs.«422336_j47991964565536_1_alg».proof.Proof.KV.Fin3
import proofs.«422336_j47991964565536_1_alg».proof.Proof.KV.Fin4

noncomputable section

namespace Cert.KernelIdeal.Val

open Idealize.ShloMosaic Idealize.ShloMosaic.TcCoe Idealize.SL.Sem
open Cert.KernelIdeal Cert.KernelIdeal.Gen Cert.KernelIdeal.Hand
open Cert.Spec (TI TF)

abbrev Nodes := TF Ideal Cert.ReferenceIdeal.S100000x128
abbrev Edges := TF Ideal Cert.ReferenceIdeal.S1700000x128

variable (m : (ℓ : Loc nD τ sig) → Buf (Elt Ideal) ℓ) (ρ : Dev nD → PrngReg) (c : Dev nD)

abbrev a0 : TI Ideal Cert.ReferenceIdeal.S100000 := m ((c : Thread nD τ).loc main_arg0)
abbrev a1 : TI Ideal Cert.ReferenceIdeal.S2x1600000 := m ((c : Thread nD τ).loc main_arg1)
abbrev a2 : TI Ideal Cert.ReferenceIdeal.S100000 := m ((c : Thread nD τ).loc main_arg2)
abbrev a3 : TF Ideal Cert.ReferenceIdeal.S50000x128 := m ((c : Thread nD τ).loc main_arg3)
abbrev a4 : TF Ideal Cert.ReferenceIdeal.S128x128 := m ((c : Thread nD τ).loc main_arg4)
abbrev a5 : TF Ideal Cert.ReferenceIdeal.S128 := m ((c : Thread nD τ).loc main_arg5)
abbrev a6 : TF Ideal Cert.ReferenceIdeal.S128x128 := m ((c : Thread nD τ).loc main_arg6)
abbrev a7 : TF Ideal Cert.ReferenceIdeal.S128 := m ((c : Thread nD τ).loc main_arg7)
abbrev a8 : TF Ideal Cert.ReferenceIdeal.S128x20 := m ((c : Thread nD τ).loc main_arg8)
abbrev a9 : TF Ideal Cert.ReferenceIdeal.S20 := m ((c : Thread nD τ).loc main_arg9)

abbrev srcs : TI Ideal Cert.ReferenceIdeal.S1700000 := Cert.Spec.srcIdx (F := Ideal) (a1 m c)
abbrev dsts : TI Ideal Cert.ReferenceIdeal.S1700000 := Cert.Spec.dstIdx (F := Ideal) (a1 m c)
abbrev nrm : TF Ideal Cert.ReferenceIdeal.S1700000 := Cert.Spec.norm (F := Ideal) (srcs m c) (dsts m c)
abbrev wcol : TF Ideal Cert.ReferenceIdeal.S1700000x1 := Cert.Spec.normCol (F := Ideal) (nrm m c)
abbrev cnt : TF Ideal Cert.ReferenceIdeal.S512x128 :=
  broadcastInDim Cert.ReferenceIdeal.S512x128 ![0, 1] Cert.ReferenceIdeal.Gen.bcast_S512x1_S512x128_0_1 (broadcastInDim Cert.ReferenceIdeal.S512x1 ![0] Cert.ReferenceIdeal.Gen.bcast_S512_S512x1_0
    (Cert.Spec.cnts (F := Ideal) (a2 m c)))

-- A layer's messages and their sums at the destinations, from the layer's projected features.
abbrev msgs (p : Nodes) : Edges :=
  Cert.Spec.scaleRows (F := Ideal) (Cert.Spec.gatherRows (F := Ideal) p (srcs m c)) (wcol m c)
abbrev aggs (p : Nodes) : Nodes := Cert.Spec.agg (F := Ideal) (dsts m c) (msgs m c p)

abbrev p1 : Nodes := Cert.Spec.proj (F := Ideal) (Cert.Spec.h0 (F := Ideal) (a0 m c) (a3 m c)) (a4 m c)
abbrev feat1 : Nodes :=
  Cert.Spec.layer (F := Ideal) (srcs m c) (dsts m c) (wcol m c) (Cert.Spec.h0 (F := Ideal) (a0 m c) (a3 m c)) (a4 m c) (a5 m c)
abbrev p2 : Nodes := Cert.Spec.proj (F := Ideal) (feat1 m c) (a6 m c)

theorem src_at3 : @Eq (TI Ideal Cert.ReferenceIdeal.S1700000) (W3 m ρ c (Proc.devRef .tc main_v5)) (srcs m c) := src_idx_eq (W0 m ρ c)
theorem dst_at3 : @Eq (TI Ideal Cert.ReferenceIdeal.S1700000) (W3 m ρ c (Proc.devRef .tc main_v6)) (dsts m c) := dst_idx_eq (W0 m ρ c)
theorem norm_at3 : @Eq (TF Ideal Cert.ReferenceIdeal.S1700000) (W3 m ρ c (Proc.devRef .tc main_v29)) (nrm m c) := norm_eq (W0 m ρ c)
theorem cnt_at3 : @Eq (TF Ideal Cert.ReferenceIdeal.S512x128) (W3 m ρ c (Proc.devRef .tc main_v35)) (cnt m c) := counts_spread_eq (W0 m ρ c)
theorem emb_at3 : @Eq (Nodes) (W3 m ρ c (Proc.devRef .tc main_v42))
    (Cert.Spec.h0 (F := Ideal) (a0 m c) (a3 m c)) := embedded_eq (W0 m ρ c)

theorem proj1_at4 : @Eq (Nodes) (W4 m ρ c (Proc.devRef .tc main_v43)) (p1 m c) := by
  refine ((W4_arr m ρ c 2).trans (final0 (V3 m ρ) c)).trans ?_
  show Cert.Spec.proj (F := Ideal) (W3 m ρ c (Proc.devRef .tc main_v42)) (W3 m ρ c (Proc.devRef .tc main_arg4)) = _
  rw [emb_at3 m ρ c, to0_from3 m ρ c main_arg4 (by decide)]

theorem msg1_at6 : @Eq (Edges) (W6 m ρ c (Proc.devRef .tc main_v52)) (msgs m c (p1 m c)) := by
  refine ((W6_arr m ρ c 2).trans (final1 (V5 m ρ) c)).trans ?_
  refine congrArg₂ (Cert.Spec.scaleRows (F := Ideal)) ((gathered1_eq (W4 m ρ c)).trans ?_) ((norm_col1_eq (W4 m ρ c)).trans ?_)
  · rw [proj1_at4 m ρ c, W4_of_ne m ρ c main_v5 (by decide), src_at3 m ρ c]
  · rw [W4_of_ne m ρ c main_v29 (by decide), norm_at3 m ρ c]

theorem agg1_at7 : @Eq (Nodes) (W7 m ρ c (Proc.devRef .tc main_v55)) (aggs m c (p1 m c)) := by
  refine (aggregated1_eq (W6 m ρ c)).trans ?_
  rw [to3_from6 m ρ c main_v6 (by decide), dst_at3 m ρ c, msg1_at6 m ρ c]
theorem brow1_at7 : @Eq (TF Ideal Cert.ReferenceIdeal.S1x128) (W7 m ρ c (Proc.devRef .tc main_v56)) (Cert.Spec.rowOf (F := Ideal) (a5 m c)) := by
  refine (bias_row1_eq (W6 m ρ c)).trans ?_
  rw [to3_from6 m ρ c main_arg5 (by decide), to0_from3 m ρ c main_arg5 (by decide)]

theorem proj2_at8 : @Eq (Nodes) (W8 m ρ c (Proc.devRef .tc main_v57)) (p2 m c) := by
  refine ((W8_arr m ρ c 3).trans (final2 (V7 m ρ) c)).trans ?_
  show Cert.Spec.proj (F := Ideal) (Cert.Spec.biasReluRow (F := Ideal) (W7 m ρ c (Proc.devRef .tc main_v55)) (W7 m ρ c (Proc.devRef .tc main_v56))) (W7 m ρ c (Proc.devRef .tc main_arg6)) = _
  rw [agg1_at7 m ρ c, brow1_at7 m ρ c, to3_from7 m ρ c main_arg6 (by decide), to0_from3 m ρ c main_arg6 (by decide)]
  rfl

theorem msg2_at10 : @Eq (Edges) (W10 m ρ c (Proc.devRef .tc main_v66)) (msgs m c (p2 m c)) := by
  refine ((W10_arr m ρ c 2).trans (final3 (V9 m ρ) c)).trans ?_
  refine congrArg₂ (Cert.Spec.scaleRows (F := Ideal)) ((gathered2_eq (W8 m ρ c)).trans ?_) ((norm_col2_eq (W8 m ρ c)).trans ?_)
  · rw [proj2_at8 m ρ c, to3_from8 m ρ c main_v5 (by decide), src_at3 m ρ c]
  · rw [to3_from8 m ρ c main_v29 (by decide), norm_at3 m ρ c]

theorem agg2_at11 : @Eq (Nodes) (W11 m ρ c (Proc.devRef .tc main_v69)) (aggs m c (p2 m c)) := by
  refine (aggregated2_eq (W10 m ρ c)).trans ?_
  rw [to3_from10 m ρ c main_v6 (by decide), dst_at3 m ρ c, msg2_at10 m ρ c]
theorem brow2_at11 : @Eq (TF Ideal Cert.ReferenceIdeal.S1x128) (W11 m ρ c (Proc.devRef .tc main_v70)) (Cert.Spec.rowOf (F := Ideal) (a7 m c)) := by
  refine (bias_row2_eq (W10 m ρ c)).trans ?_
  rw [to3_from10 m ρ c main_arg7 (by decide), to0_from3 m ρ c main_arg7 (by decide)]
theorem bcol_at11 : @Eq (TI Ideal Cert.ReferenceIdeal.S100000x1) (W11 m ρ c (Proc.devRef .tc main_v71)) (Cert.Spec.batchCol (F := Ideal) (a2 m c)) := by
  refine (batch_col4_eq (W10 m ρ c)).trans ?_
  rw [to3_from10 m ρ c main_arg2 (by decide), to0_from3 m ρ c main_arg2 (by decide)]
theorem bcrow_at11 : @Eq (TF Ideal Cert.ReferenceIdeal.S1x20) (W11 m ρ c (Proc.devRef .tc main_v72)) (Cert.Spec.bcRow (F := Ideal) (a9 m c)) := by
  refine (classifier_bias_row4_eq (W10 m ρ c)).trans ?_
  rw [to3_from10 m ρ c main_arg9 (by decide), to0_from3 m ρ c main_arg9 (by decide)]

theorem result_at12 : @Eq (TF Ideal Cert.ReferenceIdeal.S512x20) (W12 m ρ c (Proc.devRef .tc main_v73))
    (Cert.Spec.result (F := Ideal) (a0 m c) (a1 m c) (a2 m c) (a3 m c) (a4 m c) (a5 m c) (a6 m c) (a7 m c) (a8 m c) (a9 m c)) := by
  refine ((W12_arr m ρ c 6).trans (final4 (V11 m ρ) c)).trans ?_
  unfold Cert.KernelIdeal.Hand.V11
  rw [agg2_at11 m ρ c, brow2_at11 m ρ c, bcol_at11 m ρ c, to3_from11 m ρ c main_v35 (by decide), cnt_at3 m ρ c,
    to3_from11 m ρ c main_arg8 (by decide), to0_from3 m ρ c main_arg8 (by decide), bcrow_at11 m ρ c,
    max_one_spread_eq (F := Ideal) (Cert.Spec.cnts (F := Ideal) (a2 m c)) Cert.ReferenceIdeal.Gen.bcast_S512x1_S512x128_0_1 Cert.ReferenceIdeal.Gen.bcast_S512_S512x1_0
      Cert.ReferenceIdeal.Gen.bcast_S_S512x128 Cert.ReferenceIdeal.Gen.bcast_S_S512]
  rfl

end Cert.KernelIdeal.Val

end
-- ==== Proof.lean ====
import proofs.«422336_j47991964565536_1_alg».proof.Defs
import proofs.«422336_j47991964565536_1_alg».proof.Proof.Gen.Kernel
import proofs.«422336_j47991964565536_1_alg».proof.Proof.Gen.KernelIdeal
import proofs.«422336_j47991964565536_1_alg».proof.Proof.Gen.ReferenceIdeal
import proofs.«422336_j47991964565536_1_alg».proof.Proof.Gen.Pre_finite_inputs
import proofs.«422336_j47991964565536_1_alg».proof.Proof.RefSpec
import proofs.«422336_j47991964565536_1_alg».proof.Proof.KB.Run
import proofs.«422336_j47991964565536_1_alg».proof.Proof.KI.Run
import proofs.«422336_j47991964565536_1_alg».proof.Proof.KV.Chain
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun r h c => Cert.Kernel.Hand.args_kept m ρ c _ (h c)) (Cert.Kernel.Hand.run_main m ρ)

theorem frame_ki : Cert.frame_KernelIdeal := fun m ρ _ =>
  (θ_run Cert.KernelIdeal.defs _ _).mono (fun r h c => Cert.KernelIdeal.Hand.args_kept m ρ c _ (h c)) (Cert.KernelIdeal.Hand.run_main m ρ)

theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result of their arguments, and the arguments agree. -/
theorem algebraic : Cert.algebraic_KernelIdeal_ReferenceIdeal := by
  intro m g m' g' _ hagree
  refine ⟨_, (θ_run (Cert.KernelIdeal.defs (F := Ideal)) _ _).mono (fun _ h c =>
    ⟨(h c _ (Cert.KernelIdeal.Hand.mem_uc Cert.KernelIdeal.main_v73 (by decide))).trans (Cert.KernelIdeal.Val.result_at12 m g c),
      Cert.KernelIdeal.Hand.args_kept m g c _ (h c)⟩) (Cert.KernelIdeal.Hand.run_main (F := Ideal) m g), ?_⟩
  refine (θ_run Cert.ReferenceIdeal.defs _ _).mono (fun _ h c => ⟨(h c).1.trans ?_, (h c).2⟩)
    (Cert.ReferenceIdeal.Value.run (F := Ideal) m' g')
  rw [Cert.ReferenceIdeal.RefValue.res_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
